-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![8192, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S256x256 : Shape := ⟨2, ![256, 256]⟩
abbrev S2x1x256 : Shape := ⟨3, ![2, 1, 256]⟩
abbrev S2 : Shape := ⟨1, ![2]⟩
abbrev S_ : Shape := ⟨0, ![]⟩
abbrev S1 : Shape := ⟨1, ![1]⟩
abbrev S1x1x256 : Shape := ⟨3, ![1, 1, 256]⟩
abbrev S1x256 : Shape := ⟨2, ![1, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S2x1x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v11 : BitVec 32 := Scalar.extui v8
  let c0_i32_5 : BitVec 32 := 0#32
  let v12 : BitVec 1 := Scalar.cmpi .ne v11 c0_i32_5
  v12

def k0_dev1 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_45 : BitVec 32 := 1#32
  let v55 : BitVec 32 := Scalar.muli v5 c1_i32_45
  let v56 : BitVec 32 := Scalar.addi c0_i32_46 v55
  v56.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v9 : BitVec 1 := Scalar.cmpi .slt v2 c31_i32
  let v13 : BitVec 32 := Scalar.extui v9
  let c0_i32_6 : BitVec 32 := 0#32
  let v14 : BitVec 1 := Scalar.cmpi .ne v13 c0_i32_6
  v14

def k0_dev2 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_45 : BitVec 32 := 1#32
  let v55 : BitVec 32 := Scalar.muli v7 c1_i32_45
  let v56 : BitVec 32 := Scalar.addi c0_i32_46 v55
  v56.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v9 : BitVec 1 := Scalar.cmpi .slt v2 c31_i32
  let v19 : BitVec 32 := Scalar.extui v9
  let c0_i32_12 : BitVec 32 := 0#32
  let v20 : BitVec 1 := Scalar.cmpi .ne v19 c0_i32_12
  v20

def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_44 : BitVec 32 := 1#32
  let v55 : BitVec 32 := Scalar.muli v7 c1_i32_44
  let v56 : BitVec 32 := Scalar.addi c0_i32_45 v55
  v56.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v21 : BitVec 32 := Scalar.extui v8
  let c0_i32_16 : BitVec 32 := 0#32
  let v22 : BitVec 1 := Scalar.cmpi .ne v21 c0_i32_16
  v22

def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_44 : BitVec 32 := 1#32
  let v55 : BitVec 32 := Scalar.muli v5 c1_i32_44
  let v56 : BitVec 32 := Scalar.addi c0_i32_45 v55
  v56.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2_S1_0 : ∀ a, (![0] : Fin 1 → Nat) a + S1.size a ≤ S2.size a
  squeezes_S1_S_ : S1.Squeezes S_
  inb_S2x1x256_S1x1x256_0_0_0 : ∀ a, (![0, 0, 0] : Fin 3 → Nat) a + S1x1x256.size a ≤ S2x1x256.size a
  squeezes_S1x1x256_S1x256 : S1x1x256.Squeezes S1x256
  inb_S256x256_S1x256_255_0 : ∀ a, (![255, 0] : Fin 2 → Nat) a + S1x256.size a ≤ S256x256.size a
  inb_S2_S1_1 : ∀ a, (![1] : Fin 1 → Nat) a + S1.size a ≤ S2.size a
  inb_S2x1x256_S1x1x256_1_0_0 : ∀ a, (![1, 0, 0] : Fin 3 → Nat) a + S1x1x256.size a ≤ S2x1x256.size a
  inb_S256x256_S1x256_0_0 : ∀ a, (![0, 0] : Fin 2 → Nat) a + S1x256.size a ≤ S256x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  iota_S256x256_d0_w32 : S256x256.Iotas .tc 32 [0]
  iota_S256x256_d1_w32 : S256x256.Iotas .tc 32 [1]
  h_S1x1x256 : 0 < S1x1x256.numel
  shapeCasts_S1x1x256_S1x256 : S1x1x256.ShapeCasts S1x256
  slices_S256x256_o0_0_S1x256 : S256x256.Slices ![0, 0] S1x256
  slices_S256x256_o1_0_S1x256 : S256x256.Slices ![1, 0] S1x256
  h_S1x256 : 0 < S1x256.numel
  slices_S256x256_o254_0_S1x256 : S256x256.Slices ![254, 0] S1x256
  slices_S256x256_o255_0_S1x256 : S256x256.Slices ![255, 0] S1x256
  dot_S256x256_S256x256_S256x256_1_0_0_1_n_n_wf : DotDims.WF S256x256 S256x256 S256x256 [1] [0] [0] [1] [] []
  hcc0_scratch1 : 2 + S2.numel ≤ 6
  hcc0_scratch2 : 4 + S2.numel ≤ 6
  k0_dev1_lt : ∀ d0 : Dev nD, ∀ (k0_h1 : k0_cond1 d0 = 1#1), (k0_dev1 d0) < nD
  k0_dev2_lt : ∀ d0 : Dev nD, ∀ (k0_h2 : k0_cond2 d0 = 1#1), (k0_dev2 d0) < nD
  k0_dev3_lt : ∀ d0 : Dev nD, ∀ (k0_h5 : k0_cond5 d0 = 1#1), (k0_dev3 d0) < nD
  k0_dev4_lt : ∀ d0 : Dev nD, ∀ (k0_h6 : k0_cond6 d0 = 1#1), (k0_dev4 d0) < nD
  hstage0_0 : ∀ j, (stage0_0 j).IsWhole
  hstage0_1 : ∀ j, (stage0_1 j).IsWhole

variable [Facts₀]

abbrev cc0_scratch1 : DmaSems sig S2 := SemArray.consecutive 2 S2 hcc0_scratch1
abbrev cc0_scratch2 : DmaSems sig S2 := SemArray.consecutive 4 S2 hcc0_scratch2
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x256 : Shape := ⟨2, ![8192, 256]⟩
abbrev S1x256 : Shape := ⟨2, ![1, 256]⟩
abbrev S256 : Shape := ⟨1, ![256]⟩
abbrev S_ : Shape := ⟨0, ![]⟩
abbrev S1 : Shape := ⟨1, ![1]⟩
abbrev S8190x256 : Shape := ⟨2, ![8190, 256]⟩

abbrev nBuf : Space → Nat
  | .hbm => 29
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x256, .f32⟩
  | .hbm, ⟨3, _⟩ => ⟨S256, .f32⟩
  | .hbm, ⟨4, _⟩ => ⟨S_, .i32⟩
  | .hbm, ⟨5, _⟩ => ⟨S1, .i32⟩
  | .hbm, ⟨6, _⟩ => ⟨S8192x256, .f32⟩
  | .hbm, ⟨7, _⟩ => ⟨S1x256, .f32⟩
  | .hbm, ⟨8, _⟩ => ⟨S256, .f32⟩
  | .hbm, ⟨9, _⟩ => ⟨S_, .i32⟩
  | .hbm, ⟨10, _⟩ => ⟨S1, .i32⟩
  | .hbm, ⟨11, _⟩ => ⟨S8192x256, .f32⟩
  | .hbm, ⟨12, _⟩ => ⟨S8190x256, .f32⟩
  | .hbm, ⟨13, _⟩ => ⟨S_, .f32⟩
  | .hbm, ⟨14, _⟩ => ⟨S8190x256, .f32⟩
  | .hbm, ⟨15, _⟩ => ⟨S8190x256, .f32⟩
  | .hbm, ⟨16, _⟩ => ⟨S8190x256, .f32⟩
  | .hbm, ⟨17, _⟩ => ⟨S_, .f32⟩
  | .hbm, ⟨18, _⟩ => ⟨S8190x256, .f32⟩
  | .hbm, ⟨19, _⟩ => ⟨S8190x256, .f32⟩
  | .hbm, ⟨20, _⟩ => ⟨S8190x256, .f32⟩
  | .hbm, ⟨21, _⟩ => ⟨S8190x256, .f32⟩
  | .hbm, ⟨22, _⟩ => ⟨S_, .f32⟩
  | .hbm, ⟨23, _⟩ => ⟨S8190x256, .f32⟩
  | .hbm, ⟨24, _⟩ => ⟨S8190x256, .f32⟩
  | .hbm, ⟨25, _⟩ => ⟨S8190x256, .f32⟩
  | .hbm, ⟨26, _⟩ => ⟨S_, .i32⟩
  | .hbm, ⟨27, _⟩ => ⟨S1, .i32⟩
  | .hbm, ⟨28, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  slices_S8192x256_S1x256_0_0 : S8192x256.Slices ![0, 0] S1x256
  shapeCasts_S1x256_S256 : S1x256.ShapeCasts S256
  bcast_S_S1 : S_.BroadcastsInDim S1 (![] : Fin 0 → Fin S1.rank)
  slices_S8192x256_S1x256_8191_0 : S8192x256.Slices ![8191, 0] S1x256
  slices_S8192x256_S8190x256_0_0 : S8192x256.Slices ![0, 0] S8190x256
  bcast_S_S8190x256 : S_.BroadcastsInDim S8190x256 (![] : Fin 0 → Fin S8190x256.rank)
  slices_S8192x256_S8190x256_1_0 : S8192x256.Slices ![1, 0] S8190x256
  slices_S8192x256_S8190x256_2_0 : S8192x256.Slices ![2, 0] S8190x256
  scatter_S8192x256_S1_S256_0_0_0_0_wf : ScatterDims.WF S8192x256 S1 S256 [0] [0] [0] 0
  scatter_S8192x256_S1_S8190x256_01_n_0_0_wf : ScatterDims.WF S8192x256 S1 S8190x256 [0, 1] [] [0] 0

variable [Facts₀]

def scatter_S8192x256_S1_S256_0_0_0_0 : ScatterDims S8192x256 S1 S256 where
  updateWindowDims := [0]
  insertedWindowDims := [0]
  scatterDimsToOperandDims := [0]
  indexVectorDim := 0
  wf := scatter_S8192x256_S1_S256_0_0_0_0_wf
def scatter_S8192x256_S1_S8190x256_01_n_0_0 : ScatterDims S8192x256 S1 S8190x256 where
  updateWindowDims := [0, 1]
  insertedWindowDims := []
  scatterDimsToOperandDims := [0]
  indexVectorDim := 0
  wf := scatter_S8192x256_S1_S8190x256_01_n_0_0_wf

class Facts : Prop extends Facts₀ where

variable [Facts]
-- ==== Proof.Mems.lean ====
import proofs.«900540_g7700000000000541_dist_halo_stencil_i_m256_n256_v7x_i32_f32_1_alg».proof.Proof.Gen.KernelIdeal.Skeleton
noncomputable section
namespace Cert.KernelIdeal.Mems
open Idealize.ShloMosaic Idealize.ShloMosaic.TcCoe Idealize.SL.Sem
open Cert.KernelIdeal Cert.KernelIdeal.Gen

abbrev xM : Memref sig .tc .vmem S256x256 .f32 := Memref.whole cc0_stg0_0

abbrev oM : Memref sig .tc .vmem S256x256 .f32 := Memref.whole cc0_stg1_0

abbrev hM : Memref sig .tc .vmem S2x1x256 .f32 := Memref.whole cc0_scratch0

abbrev rSlot0 : Rect S2x1x256 := Rect.unit (s := S2x1x256) ![0, 0, 0] S1x1x256.size Facts₀.inb_S2x1x256_S1x1x256_0_0_0

abbrev rSlot1 : Rect S2x1x256 := Rect.unit (s := S2x1x256) ![1, 0, 0] S1x1x256.size Facts₀.inb_S2x1x256_S1x1x256_1_0_0

abbrev rRow0 : Rect S256x256 := Rect.unit (s := S256x256) ![0, 0] S1x256.size Facts₀.inb_S256x256_S1x256_0_0

abbrev rRow255 : Rect S256x256 := Rect.unit (s := S256x256) ![255, 0] S1x256.size Facts₀.inb_S256x256_S1x256_255_0

abbrev rAll : Rect S256x256 := Rect.unit (s := S256x256) ![0, 0] S256x256.size Facts₀.inb_S256x256_S256x256_0_0

abbrev slot0M : Memref sig .tc .vmem S1x256 .f32 := (hM.slice rSlot0 (fun _ => rfl)).squeeze S1x256 Facts₀.squeezes_S1x1x256_S1x256

abbrev slot1M : Memref sig .tc .vmem S1x256 .f32 := (hM.slice rSlot1 (fun _ => rfl)).squeeze S1x256 Facts₀.squeezes_S1x1x256_S1x256

abbrev row0M : Memref sig .tc .vmem S1x256 .f32 := xM.slice rRow0 (fun _ => rfl)

abbrev row255M : Memref sig .tc .vmem S1x256 .f32 := xM.slice rRow255 (fun _ => rfl)

abbrev sndS0 : DmaSems sig S_ := (cc0_scratch1.slice (Rect.unit (s := S2) ![0] S1.size Facts₀.inb_S2_S1_0)).squeeze S_ Facts₀.squeezes_S1_S_

abbrev sndS1 : DmaSems sig S_ := (cc0_scratch1.slice (Rect.unit (s := S2) ![1] S1.size Facts₀.inb_S2_S1_1)).squeeze S_ Facts₀.squeezes_S1_S_

abbrev rcvS0 : DmaSems sig S_ := (cc0_scratch2.slice (Rect.unit (s := S2) ![0] S1.size Facts₀.inb_S2_S1_0)).squeeze S_ Facts₀.squeezes_S1_S_

abbrev rcvS1 : DmaSems sig S_ := (cc0_scratch2.slice (Rect.unit (s := S2) ![1] S1.size Facts₀.inb_S2_S1_1)).squeeze S_ Facts₀.squeezes_S1_S_

abbrev barS : Sem sig := (SemArray.scalar (sig.barrier 0 rfl) : Sems sig S_).sem

abbrev N : ℕ := slot0M.view.dmaCredit

theorem N_pos : 0 < N := View.dmaCredit_pos _ (by decide)

theorem credit_slot1 : slot1M.view.dmaCredit = N := by decide
end Cert.KernelIdeal.Mems
end
-- ==== Proof.KVal.lean ====
import proofs.«900540_g7700000000000541_dist_halo_stencil_i_m256_n256_v7x_i32_f32_1_alg».proof.Proof.Mems
import Idealize.ShloMosaic.Lib.ValueIdx
noncomputable section
namespace Cert.KernelIdeal.KVal
open Idealize.ShloMosaic Idealize.ShloMosaic.ValueIdx Idealize.ShloMosaic.TcCoe Idealize.SL.Sem
open Cert.KernelIdeal Cert.KernelIdeal.Gen Cert.KernelIdeal.Mems
variable {F : FTy → Type} [FloatOps F]

def haloOf (x : Vec F S256x256 .f32) (r : Fin 256) : Vec F S1x1x256 .f32 := fun i => x (ix2 r (i 2))

def mmV (x : Vec F S256x256 .f32) : FVec F S256x256 .f32 :=
  k0_pay3 (k0_pay1 x) (iota .tc S256x256 32 [0] Facts₀.iota_S256x256_d0_w32) (iota .tc S256x256 32 [1] Facts₀.iota_S256x256_d1_w32) k0_pay2
    (Scalar.ofBits .f32 0x3F000000#32) (Scalar.ofBits .f32 0x00000000#32)

def topV (hasL : Bool) (x : Vec F S256x256 .f32) (hL : Vec F S1x1x256 .f32) : FVec F S1x256 .f32 :=
  if hasL then k0_pay4 (k0_pay1 x) hL else k0_pay5 (k0_pay1 x)

def botV (hasR : Bool) (x : Vec F S256x256 .f32) (hR : Vec F S1x1x256 .f32) : FVec F S1x256 .f32 :=
  if hasR then k0_pay6 (k0_pay1 x) hR else k0_pay7 (k0_pay1 x)

def outVal (hasL hasR : Bool) (x : Vec F S256x256 .f32) (hL hR : Vec F S1x1x256 .f32) : (cc0_stg1_0 : Ref sig .tc).ty.Contents (Elt F) :=
  (oM.access rRow255 : View sig .tc _ _ _).write (Elt F)
    ((oM.access rRow0 : View sig .tc _ _ _).write (Elt F) (mmV x) (topV hasL x hL) Finset.univ)
    (botV hasR x hR) Finset.univ
end Cert.KernelIdeal.KVal
end
-- ==== Proof.Proto.lean ====
import proofs.«900540_g7700000000000541_dist_halo_stencil_i_m256_n256_v7x_i32_f32_1_alg».proof.Proof.Mems
import proofs.«900540_g7700000000000541_dist_halo_stencil_i_m256_n256_v7x_i32_f32_1_alg».proof.Proof.KVal
import proofs.«900540_g7700000000000541_dist_halo_stencil_i_m256_n256_v7x_i32_f32_1_alg».proof.Proof.Gen.KernelIdeal.Launch
import Idealize.ShloMosaic.Lib.Pipeline.Launch
import Idealize.ShloMosaic.Lib.Pipeline.Kit
import Idealize.ShloMosaic.Lib.Tactic
noncomputable section
namespace Cert.KernelIdeal.Proto
open Cert.KernelIdeal Cert.KernelIdeal.Gen Cert.KernelIdeal.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

abbrev UB : Type := URounds (GSem nD τ sig) Bool

abbrev UU : Type := UR sig nD τ × UB
local notation "𝕄" => MT nD τ sig Unit (Elt F) ℕ UU ℕ

abbrev EP : Emb (UR sig nD τ) (MT nD τ sig Unit (Elt F) ℕ UU ℕ) := embL

abbrev ER : Emb UB (MT nD τ sig Unit (Elt F) ℕ UU ℕ) := embR
variable (m : (ℓ : Loc nD τ sig) → Buf (Elt F) ℓ) (ρ : Dev nD → PrngReg)

def s₀ : MemSt nD τ sig (Elt F) := ⟨m, fun _ => 0, ρ⟩

def lft (c : Dev nD) : Dev nD := ⟨(c.val + 31) % 32, Nat.mod_lt _ (by decide)⟩

def rgt (c : Dev nD) : Dev nD := ⟨(c.val + 1) % 32, Nat.mod_lt _ (by decide)⟩

abbrev hasL (c : Dev nD) : Prop := 0 < c.val

abbrev hasR (c : Dev nD) : Prop := c.val < 31

theorem lft_rgt (c : Dev nD) : lft (rgt c) = c := by revert c; decide

theorem rgt_lft (c : Dev nD) : rgt (lft c) = c := by revert c; decide

theorem hasR_lft {c : Dev nD} (h : hasL c) : hasR (lft c) := by revert c; decide

theorem hasL_rgt {c : Dev nD} (h : hasR c) : hasL (rgt c) := by revert c; decide

theorem lft_val {c : Dev nD} (h : hasL c) : (lft c).val + 1 = c.val := by revert c; decide

theorem rgt_val {c : Dev nD} (h : hasR c) : (rgt c).val = c.val + 1 := by revert c; decide

def line : Dev nD ≃ Dev nD := ⟨rgt, lft, lft_rgt, rgt_lft⟩

theorem cond1_iff (c : Dev nD) : k0_cond1 c = 1#1 ↔ hasL c := by revert c; decide +kernel

theorem cond2_iff (c : Dev nD) : k0_cond2 c = 1#1 ↔ hasR c := by revert c; decide +kernel

theorem cond5_iff (c : Dev nD) : k0_cond5 c = 1#1 ↔ hasR c := by revert c; decide +kernel

theorem cond6_iff (c : Dev nD) : k0_cond6 c = 1#1 ↔ hasL c := by revert c; decide +kernel

theorem dev1_eq (c : Dev nD) (h : k0_cond1 c = 1#1) : (⟨k0_dev1 c, Facts₀.k0_dev1_lt c h⟩ : Dev nD) = lft c := Fin.ext (k0_dev1_eq c)

theorem dev2_eq (c : Dev nD) (h : k0_cond2 c = 1#1) : (⟨k0_dev2 c, Facts₀.k0_dev2_lt c h⟩ : Dev nD) = rgt c := Fin.ext (k0_dev2_eq c)

theorem dev3_eq (c : Dev nD) (h : k0_cond5 c = 1#1) : (⟨k0_dev3 c, Facts₀.k0_dev3_lt c h⟩ : Dev nD) = rgt c := Fin.ext (k0_dev3_eq c)

theorem dev4_eq (c : Dev nD) (h : k0_cond6 c = 1#1) : (⟨k0_dev4 c, Facts₀.k0_dev4_lt c h⟩ : Dev nD) = lft c := Fin.ext (k0_dev4_eq c)

abbrev barCell (c : Dev nD) : GSem nD τ sig := ((c : Thread nD τ), .reg barS)

abbrev snd0Cell (c : Dev nD) : GSem nD τ sig := ((c : Thread nD τ), .dma sndS0.sem)

abbrev snd1Cell (c : Dev nD) : GSem nD τ sig := ((c : Thread nD τ), .dma sndS1.sem)

abbrev rcv0Cell (c : Dev nD) : GSem nD τ sig := ((c : Thread nD τ), .dma rcvS0.sem)

abbrev rcv1Cell (c : Dev nD) : GSem nD τ sig := ((c : Thread nD τ), .dma rcvS1.sem)

abbrev osem : Fin 4 → SemLoc sig := fun | 0 => .dma sndS0.sem | 1 => .dma sndS1.sem | 2 => .dma rcvS0.sem | 3 => .dma rcvS1.sem

abbrev csem : Fin 5 → SemLoc sig := fun | 0 => .reg barS | 1 => .dma sndS0.sem | 2 => .dma sndS1.sem | 3 => .dma rcvS0.sem | 4 => .dma rcvS1.sem

abbrev kcell (ck : Dev nD × Fin 5) : GSem nD τ sig := ((ck.1 : Thread nD τ), csem ck.2)

def xstg (c : Dev nD) : (cc0_stg0_0 : Ref sig .tc).ty.Contents (Elt F) :=
  (win0_0.blk (0 : Fin 1)).view.read (Elt F) ((s₀ m ρ).mem ((c : Thread nD τ).loc main_arg0))

def landed (c : Dev nD) : Buf (Elt F) (hM.view.loc (c : Thread nD τ)) := fun i =>
  if (i 0).val = 0 then xstg m ρ (lft c) (ValueIdx.ix2 (255 : Fin 256) (i 2)) else xstg m ρ (rgt c) (ValueIdx.ix2 (0 : Fin 256) (i 2))

def slot0Pts (c : Dev nD) (f : Buf (Elt F) (hM.view.loc (c : Thread nD τ))) : sProp 𝕄 :=
  slot0M.view.loc (c : Thread nD τ) ↦[slot0M.view.set]{fullShare} f

def slot1Pts (c : Dev nD) (f : Buf (Elt F) (hM.view.loc (c : Thread nD τ))) : sProp 𝕄 :=
  slot1M.view.loc (c : Thread nD τ) ↦[slot1M.view.set]{fullShare} f

def row255Pts (c : Dev nD) : sProp 𝕄 :=
  row255M.view.loc (c : Thread nD τ) ↦[row255M.view.set]{fullShare.right} xstg m ρ c

def row0Pts (c : Dev nD) : sProp 𝕄 :=
  row0M.view.loc (c : Thread nD τ) ↦[row0M.view.set]{fullShare.right} xstg m ρ c

def barPayL (c : Dev nD) : sProp 𝕄 := iprop((∃ f, slot1Pts (lft c) f) ∗ reached ER (rcv1Cell (lft c)) 0)

def barPayR (c : Dev nD) : sProp 𝕄 := iprop((∃ f, slot0Pts (rgt c) f) ∗ reached ER (rcv0Cell (rgt c)) 0)

def rcv0Pay (c : Dev nD) : sProp 𝕄 := slot0Pts c (landed m ρ c)

def rcv1Pay (c : Dev nD) : sProp 𝕄 := slot1Pts c (landed m ρ c)

def snd0Pay (c : Dev nD) : sProp 𝕄 := row255Pts m ρ c

def snd1Pay (c : Dev nD) : sProp 𝕄 := row0Pts m ρ c

/-- Every semaphore is used once: a device signals each neighbour once on the barrier and sends it one row, and waits for the same from them. -/
def sched : Rounds.Schedule (GSem nD τ sig) Bool 𝕄 where
  duties g r :=
    if r = 0 ∧ g.1.2 = .tc then
      if g.2 = .reg barS then (if hasL g.1.1 then {false} else ∅) ∪ (if hasR g.1.1 then {true} else ∅)
      else if g.2 = .dma sndS0.sem then (if hasR g.1.1 then {false} else ∅)
      else if g.2 = .dma sndS1.sem then (if hasL g.1.1 then {false} else ∅)
      else if g.2 = .dma rcvS0.sem then (if hasL g.1.1 then {false} else ∅)
      else if g.2 = .dma rcvS1.sem then (if hasR g.1.1 then {false} else ∅)
      else ∅
    else ∅
  unitless _ := False
  amount g _ _ := if g.2 = .reg barS then 1 else N
  payload g _ d :=
    if g.2 = .reg barS then (if d then barPayR g.1.1 else barPayL g.1.1)
    else if g.2 = .dma rcvS0.sem then rcv0Pay m ρ g.1.1
    else if g.2 = .dma rcvS1.sem then rcv1Pay m ρ g.1.1
    else if g.2 = .dma sndS0.sem then snd0Pay m ρ g.1.1
    else if g.2 = .dma sndS1.sem then snd1Pay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched m ρ).payload g r d) := by
  show BI.Storable upEmb (if g.2 = .reg barS then (if d then barPayR g.1.1 else barPayL g.1.1)
    else if g.2 = .dma rcvS0.sem then rcv0Pay m ρ g.1.1
    else if g.2 = .dma rcvS1.sem then rcv1Pay m ρ g.1.1
    else if g.2 = .dma sndS0.sem then snd0Pay m ρ g.1.1
    else if g.2 = .dma sndS1.sem then snd1Pay m ρ g.1.1
    else iprop(emp))
  unfold barPayR barPayL rcv0Pay rcv1Pay snd0Pay snd1Pay slot0Pts slot1Pts row255Pts row0Pts
  (repeat' split) <;> infer_instance
section Sched
variable (c : Dev nD)

theorem duties_bar : (sched m ρ).duties (barCell c) 0 = (if hasL c then {false} else ∅) ∪ (if hasR c then {true} else ∅) := by
  dsimp only [sched]; rw [if_pos ⟨rfl, rfl⟩]; rfl

theorem duties_snd0 : (sched m ρ).duties (snd0Cell c) 0 = if hasR c then {false} else ∅ := by
  dsimp only [sched]; rw [if_pos ⟨rfl, rfl⟩]; rfl

theorem duties_snd1 : (sched m ρ).duties (snd1Cell c) 0 = if hasL c then {false} else ∅ := by
  dsimp only [sched]; rw [if_pos ⟨rfl, rfl⟩]; rfl

theorem duties_rcv0 : (sched m ρ).duties (rcv0Cell c) 0 = if hasL c then {false} else ∅ := by
  dsimp only [sched]; rw [if_pos ⟨rfl, rfl⟩]; rfl

theorem duties_rcv1 : (sched m ρ).duties (rcv1Cell c) 0 = if hasR c then {false} else ∅ := by
  dsimp only [sched]; rw [if_pos ⟨rfl, rfl⟩]; rfl

theorem duties_later (g : GSem nD τ sig) : ∀ r, 1 ≤ r → (sched m ρ).duties g r = ∅ :=
  fun r hr => by dsimp only [sched]; rw [if_neg fun h => by omega]

theorem amount_bar (d : Bool) : (sched m ρ).amount (barCell c) 0 d = 1 := rfl

theorem amount_snd0 (d : Bool) : (sched m ρ).amount (snd0Cell c) 0 d = N := rfl

theorem amount_snd1 (d : Bool) : (sched m ρ).amount (snd1Cell c) 0 d = N := rfl

theorem amount_rcv0 (d : Bool) : (sched m ρ).amount (rcv0Cell c) 0 d = N := rfl

theorem amount_rcv1 (d : Bool) : (sched m ρ).amount (rcv1Cell c) 0 d = N := rfl

theorem payload_bar_false : (sched m ρ).payload (barCell c) 0 false = barPayL c := rfl

theorem payload_bar_true : (sched m ρ).payload (barCell c) 0 true = barPayR c := rfl

theorem payload_rcv0 (d : Bool) : (sched m ρ).payload (rcv0Cell c) 0 d = rcv0Pay m ρ c := rfl

theorem payload_rcv1 (d : Bool) : (sched m ρ).payload (rcv1Cell c) 0 d = rcv1Pay m ρ c := rfl

theorem payload_snd0 (d : Bool) : (sched m ρ).payload (snd0Cell c) 0 d = snd0Pay m ρ c := rfl

theorem payload_snd1 (d : Bool) : (sched m ρ).payload (snd1Cell c) 0 d = snd1Pay m ρ c := rfl

theorem expect_bar : (sched m ρ).expect (barCell c) 0 = (if hasL c then 1 else 0) + (if hasR c then 1 else 0) := by
  unfold Schedule.expect Schedule.amountOf
  rw [duties_bar, Finset.sum_congr rfl fun d _ => amount_bar m ρ c d, Finset.sum_const, smul_eq_mul, Nat.mul_one]
  by_cases hl : hasL c <;> by_cases hr : hasR c <;> simp [hl, hr]

theorem expect_snd0 : (sched m ρ).expect (snd0Cell c) 0 = if hasR c then N else 0 := by
  unfold Schedule.expect Schedule.amountOf; rw [duties_snd0]
  by_cases hr : hasR c
  · rw [if_pos hr, if_pos hr, Finset.sum_singleton, amount_snd0]
  · rw [if_neg hr, if_neg hr, Finset.sum_empty]

theorem expect_snd1 : (sched m ρ).expect (snd1Cell c) 0 = if hasL c then N else 0 := by
  unfold Schedule.expect Schedule.amountOf; rw [duties_snd1]
  by_cases hl : hasL c
  · rw [if_pos hl, if_pos hl, Finset.sum_singleton, amount_snd1]
  · rw [if_neg hl, if_neg hl, Finset.sum_empty]

theorem expect_rcv0 : (sched m ρ).expect (rcv0Cell c) 0 = if hasL c then N else 0 := by
  unfold Schedule.expect Schedule.amountOf; rw [duties_rcv0]
  by_cases hl : hasL c
  · rw [if_pos hl, if_pos hl, Finset.sum_singleton, amount_rcv0]
  · rw [if_neg hl, if_neg hl, Finset.sum_empty]

theorem expect_rcv1 : (sched m ρ).expect (rcv1Cell c) 0 = if hasR c then N else 0 := by
  unfold Schedule.expect Schedule.amountOf; rw [duties_rcv1]
  by_cases hr : hasR c
  · rw [if_pos hr, if_pos hr, Finset.sum_singleton, amount_rcv1]
  · rw [if_neg hr, if_neg hr, Finset.sum_empty]
end Sched

def owedR (c : Dev nD) : CellTallies nD τ sig Unit := tallyAt (rcv0Cell (rgt c)) () N + tallyAt (barCell (rgt c)) () 1

def owedL (c : Dev nD) : CellTallies nD τ sig Unit := tallyAt (rcv1Cell (lft c)) () N + tallyAt (barCell (lft c)) () 1

def O₀ (c : Dev nD) : CellTallies nD τ sig Unit := (if hasR c then owedR c else 0) + (if hasL c then owedL c else 0)

def L (g : GSem nD τ sig) : Finset Unit := if g.1.2 = .tc then {()} else ∅

/-- A barrier wait comes before the receive waits it makes safe, and a send wait owes nothing. -/
def lv (g : GSem nD τ sig) (_ : Unit) : ℕ :=
  if g.2 = .reg barS then 1 else if g.2 = .dma rcvS0.sem ∨ g.2 = .dma rcvS1.sem then 2 else 0

theorem L_of_ne (g : GSem nD τ sig) (h : g.1.2 ≠ .tc) : L g = ∅ := if_neg h

theorem L_tc (c : Dev nD) (sm : SemLoc sig) : L ((c : Thread nD τ), sm) = {()} := if_pos rfl

theorem lv_bar (c : Dev nD) : lv (barCell c) () = 1 := rfl

theorem lv_rcv0 (c : Dev nD) : lv (rcv0Cell c) () = 2 := rfl

theorem lv_rcv1 (c : Dev nD) : lv (rcv1Cell c) () = 2 := rfl

theorem lv_other (c : Dev nD) (q : DmaSem sig) (h0 : SemLoc.dma q ≠ (.dma rcvS0.sem : SemLoc sig)) (h1 : SemLoc.dma q ≠ (.dma rcvS1.sem : SemLoc sig)) :
    lv ((c : Thread nD τ), .dma q) () = 0 := by
  unfold lv; rw [if_neg (fun h => by cases h), if_neg (fun h => h.elim h0 h1)]

theorem owedR_pos {c : Dev nD} {g : GSem nD τ sig} {u : Unit} (h : 0 < owedR c g u) : g = rcv0Cell (rgt c) ∨ g = barCell (rgt c) := by
  rcases Pipeline.add_pos_cases h with h | h
  · exact Or.inl (Pipeline.tallyAt_pos h).1
  · exact Or.inr (Pipeline.tallyAt_pos h).1

theorem owedL_pos {c : Dev nD} {g : GSem nD τ sig} {u : Unit} (h : 0 < owedL c g u) : g = rcv1Cell (lft c) ∨ g = barCell (lft c) := by
  rcases Pipeline.add_pos_cases h with h | h
  · exact Or.inl (Pipeline.tallyAt_pos h).1
  · exact Or.inr (Pipeline.tallyAt_pos h).1

theorem zero_pos_false {g : GSem nD τ sig} {u : Unit} (h : 0 < (0 : CellTallies nD τ sig Unit) g u) : False := by
  rw [Pi.zero_apply, Finsupp.zero_apply] at h; exact Nat.lt_irrefl 0 h

theorem O₀_pos {c : Dev nD} {g : GSem nD τ sig} {u : Unit} (h : 0 < O₀ c g u) :
    ∃ d : Dev nD, g = rcv0Cell d ∨ g = rcv1Cell d ∨ g = barCell d := by
  unfold O₀ at h
  rcases Pipeline.add_pos_cases h with h | h
  · by_cases hr : hasR c
    · rw [if_pos hr] at h; rcases owedR_pos h with rfl | rfl
      · exact ⟨rgt c, Or.inl rfl⟩
      · exact ⟨rgt c, Or.inr (Or.inr rfl)⟩
    · rw [if_neg hr] at h; exact (zero_pos_false h).elim
  · by_cases hl : hasL c
    · rw [if_pos hl] at h; rcases owedL_pos h with rfl | rfl
      · exact ⟨lft c, Or.inr (Or.inl rfl)⟩
      · exact ⟨lft c, Or.inr (Or.inr rfl)⟩
    · rw [if_neg hl] at h; exact (zero_pos_false h).elim

theorem mayWait_low (c : Dev nD) (q : DmaSem sig) (h0 : SemLoc.dma q ≠ (.dma rcvS0.sem : SemLoc sig)) (h1 : SemLoc.dma q ≠ (.dma rcvS1.sem : SemLoc sig))
    (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [lv_other c q h0 h1]
    obtain ⟨d, rfl | rfl | rfl⟩ := O₀_pos hg
    · exact ⟨by rw [L_tc]; exact Finset.mem_singleton_self _, by rw [lv_rcv0]; decide⟩
    · exact ⟨by rw [L_tc]; exact Finset.mem_singleton_self _, by rw [lv_rcv1]; decide⟩
    · exact ⟨by rw [L_tc]; exact Finset.mem_singleton_self _, by rw [lv_bar]; decide⟩
  · rw [MayWait_zero]; iintro -; iempintro

theorem mayWait_bar (c : Dev nD) (O : CellTallies nD τ sig Unit)
    (hO : ∀ g u, 0 < O g u → ∃ d : Dev nD, g = rcv0Cell d ∨ g = rcv1Cell d) :
    (levAts L lv : sProp 𝕄) ⊢ MayWait (c : Thread nD τ) (.reg barS) () O := by
  refine Pipeline.mayWait_of_levAts (by rw [L_tc]; exact Finset.mem_singleton_self _) fun g u hg => ?_
  rw [lv_bar]
  obtain ⟨d, rfl | rfl⟩ := hO g u hg
  · exact ⟨by rw [L_tc]; exact Finset.mem_singleton_self _, by rw [lv_rcv0]; decide⟩
  · exact ⟨by rw [L_tc]; exact Finset.mem_singleton_self _, by rw [lv_rcv1]; decide⟩
end Cert.KernelIdeal.Proto
end
-- ==== Proof.Data.lean ====
import proofs.«900540_g7700000000000541_dist_halo_stencil_i_m256_n256_v7x_i32_f32_1_alg».proof.Proof.Proto
import proofs.«900540_g7700000000000541_dist_halo_stencil_i_m256_n256_v7x_i32_f32_1_alg».proof.Proof.Gen.KernelIdeal.Points
noncomputable section
namespace Cert.KernelIdeal.Proto
open Cert.KernelIdeal Cert.KernelIdeal.Gen Cert.KernelIdeal.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

theorem cfg0_N : cfg0.N = 1 := by decide

def t₀ : Fin cfg0.N := ⟨0, by rw [cfg0_N]; decide⟩

theorem fin_N (t : Fin cfg0.N) : t = t₀ := by
  obtain ⟨t, ht⟩ := t; have := cfg0_N; exact Fin.ext (by simp only [t₀]; omega)

def outAt (c : Dev nD) : (cc0_stg1_0 : Ref sig .tc).ty.Contents (Elt F) :=
  KVal.outVal (decide (hasL c)) (decide (hasR c)) (xstg m ρ c) (KVal.haloOf (xstg m ρ (lft c)) 255) (KVal.haloOf (xstg m ρ (rgt c)) 0)

def invs (K : Dev nD × Fin 5 → ℕ) (c : Dev nD) : sProp 𝕄 :=
  iprop(cellInv ER (sched m ρ) (K (c, 0)) (barCell c) ∗ cellInv ER (sched m ρ) (K (c, 1)) (snd0Cell c) ∗ cellInv ER (sched m ρ) (K (c, 2)) (snd1Cell c)
    ∗ cellInv ER (sched m ρ) (K (c, 3)) (rcv0Cell c) ∗ cellInv ER (sched m ρ) (K (c, 4)) (rcv1Cell c)
    ∗ cellInv ER (sched m ρ) (K (lft c, 0)) (barCell (lft c)) ∗ cellInv ER (sched m ρ) (K (rgt c, 0)) (barCell (rgt c))
    ∗ cellInv ER (sched m ρ) (K (rgt c, 3)) (rcv0Cell (rgt c)) ∗ cellInv ER (sched m ρ) (K (lft c, 4)) (rcv1Cell (lft c)))

instance invs_persistent (K : Dev nD × Fin 5 → ℕ) (c : Dev nD) : BI.Persistent (invs m ρ K c) := by unfold invs; infer_instance

def ghost (K : Dev nD × Fin 5 → ℕ) (c : Dev nD) : sProp 𝕄 :=
  iprop(invs m ρ K c
    ∗ atPos ER (barCell c) 0 ∅ 0 ∗ atPos ER (snd0Cell c) 0 ∅ 0 ∗ atPos ER (snd1Cell c) 0 ∅ 0 ∗ atPos ER (rcv0Cell c) 0 ∅ 0 ∗ atPos ER (rcv1Cell c) 0 ∅ 0
    ∗ reached ER (barCell (lft c)) 0 ∗ reached ER (barCell (rgt c)) 0 ∗ reached ER (rcv0Cell (rgt c)) 0 ∗ reached ER (rcv1Cell (lft c)) 0
    ∗ reached ER (snd0Cell c) 0 ∗ reached ER (snd1Cell c) 0 ∗ reached ER (rcv0Cell c) 0 ∗ reached ER (rcv1Cell c) 0
    ∗ dutyTok ER (barCell (lft c)) 0 true ∗ dutyTok ER (barCell (rgt c)) 0 false
    ∗ dutyTok ER (rcv0Cell (rgt c)) 0 false ∗ dutyTok ER (rcv1Cell (lft c)) 0 false
    ∗ dutyTok ER (snd0Cell c) 0 false ∗ dutyTok ER (snd1Cell c) 0 false)

abbrev barUnits (c : Dev nD) : ℕ := (if hasL c then 1 else 0) + (if hasR c then 1 else 0)

abbrev rcv0Units (c : Dev nD) : ℕ := if hasL c then N else 0

abbrev rcv1Units (c : Dev nD) : ℕ := if hasR c then N else 0

def start (c : Dev nD) : sProp 𝕄 :=
  iprop((∃ K, ghost m ρ K c) ∗ cred (tallyAt (barCell c) () (barUnits c)) ∗ cred (tallyAt (rcv0Cell c) () (rcv0Units c))
    ∗ cred (tallyAt (rcv1Cell c) () (rcv1Units c)) ∗ levAts L lv)

def haloPts (c : Dev nD) (f : Buf (Elt F) ((c : Thread nD τ).loc cc0_scratch0)) : sProp 𝕄 := ((c : Thread nD τ).loc cc0_scratch0) ↦{fullShare} f

def Φ₀ (c : Dev nD) : sProp 𝕄 := iprop(start m ρ c ∗ ∃ f, haloPts c f)

def Φ₁ (c : Dev nD) : sProp 𝕄 :=
  iprop((∃ f, haloPts c f) ∗ semVal (snd0Cell c) 0 ∗ semVal (snd1Cell c) 0 ∗ semVal (rcv0Cell c) 0 ∗ semVal (rcv1Cell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 5 → ℕ) (c : Dev nD) : sProp 𝕄 :=
  iprop((ghost m ρ K c ∗ cred (tallyAt (barCell c) () (barUnits c)) ∗ cred (tallyAt (rcv0Cell c) () (rcv0Units c))
      ∗ cred (tallyAt (rcv1Cell c) () (rcv1Units c)) ∗ levAts L lv ∗ ∃ f, haloPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

def SoundBody (K : Dev nD × Fin 5 → ℕ) (c : Dev nD) : Prop :=
  ∀ Kt : PUnit → sProp 𝕄,
    iprop(bodyPre m ρ K c ∗ (bodyPost m ρ c -∗ Kt ⟨⟩))
      ⊢ wp frame (wpE (defs₀ (F := F)) 𝒱₀ c none) Set.univ (theBody (F := F)) Kt
end Cert.KernelIdeal.Proto
end
-- ==== Proof.LibRect.lean ====
import Idealize.ShloMosaic.Lib.Pipeline.Value
namespace Cert.LibRect
open Idealize.ShloMosaic

/-- A rectangle that takes the one index `r` on axis 0 and every index on the other axes holds exactly the indices whose
    coordinate 0 is `r`. -/
theorem mem_unit_row {s : Shape} {off size : Fin s.rank → ℕ} {inb} (r : ℕ) (h0 : 0 < s.rank)
    (hr : off ⟨0, h0⟩ = r ∧ size ⟨0, h0⟩ = 1) (hrest : ∀ a, a ≠ ⟨0, h0⟩ → off a = 0 ∧ size a = s.size a) {i : s.Idx} :
    i ∈ (Rect.unit off size inb).set ↔ (i ⟨0, h0⟩).val = r := by
  rw [Rect.mem_set_unit]
  constructor
  · intro h; have := h ⟨0, h0⟩; rw [hr.1, hr.2] at this; omega
  · intro h a
    by_cases ha : a = ⟨0, h0⟩
    · subst ha; rw [hr.1, hr.2]; omega
    · rw [(hrest a ha).1, (hrest a ha).2, Nat.zero_add]; exact ⟨Nat.zero_le _, (i a).isLt⟩
end Cert.LibRect
-- ==== Proof.Views.lean ====
import proofs.«900540_g7700000000000541_dist_halo_stencil_i_m256_n256_v7x_i32_f32_1_alg».proof.Proof.Mems
import proofs.«900540_g7700000000000541_dist_halo_stencil_i_m256_n256_v7x_i32_f32_1_alg».proof.Proof.KVal
import proofs.«900540_g7700000000000541_dist_halo_stencil_i_m256_n256_v7x_i32_f32_1_alg».proof.Proof.LibRect
import Idealize.ShloMosaic.Lib.Pipeline.Value
import Idealize.ShloMosaic.Lib.ValueIdx
noncomputable section
namespace Cert.KernelIdeal.Views
open Cert
open Idealize.ShloMosaic Idealize.ShloMosaic.ValueIdx Idealize.ShloMosaic.TcCoe Idealize.SL.Sem
open Cert.KernelIdeal Cert.KernelIdeal.Gen Cert.KernelIdeal.Mems
variable {F : FTy → Type} [FloatOps F]

theorem slot0_set : slot0M.view.set = rSlot0.set := by
  show (((View.whole cc0_scratch0 : View sig .tc _ _ _).slice rSlot0).reshape S1x256 _).set = _
  rw [View.set_reshape, View.set_slice_whole]

theorem slot1_set : slot1M.view.set = rSlot1.set := by
  show (((View.whole cc0_scratch0 : View sig .tc _ _ _).slice rSlot1).reshape S1x256 _).set = _
  rw [View.set_reshape, View.set_slice_whole]

theorem row0_set : row0M.view.set = rRow0.set := by
  show ((View.whole cc0_stg0_0 : View sig .tc _ _ _).slice rRow0).set = _
  rw [View.set_slice_whole]

theorem row255_set : row255M.view.set = rRow255.set := by
  show ((View.whole cc0_stg0_0 : View sig .tc _ _ _).slice rRow255).set = _
  rw [View.set_slice_whole]

theorem mem_slot0 {i : S2x1x256.Idx} : i ∈ slot0M.view.set ↔ (i 0).val = 0 := by
  rw [slot0_set]; exact LibRect.mem_unit_row 0 (by decide) ⟨rfl, rfl⟩ (by decide)

theorem mem_slot1 {i : S2x1x256.Idx} : i ∈ slot1M.view.set ↔ (i 0).val = 1 := by
  rw [slot1_set]; exact LibRect.mem_unit_row 1 (by decide) ⟨rfl, rfl⟩ (by decide)

theorem slots_disjoint : Disjoint slot0M.view.set slot1M.view.set :=
  Finset.disjoint_left.mpr fun i h0 h1 => by
    have e0 := mem_slot0.mp h0; have e1 := mem_slot1.mp h1; omega

theorem slots_union : slot0M.view.set ∪ slot1M.view.set = Finset.univ := by
  ext i
  simp only [Finset.mem_union, Finset.mem_univ, iff_true]
  have h0 : ((i : S2x1x256.Idx) 0).val < 2 := (i 0).isLt
  rcases Nat.lt_or_ge ((i : S2x1x256.Idx) 0).val 1 with h | h
  · exact .inl (mem_slot0.mpr (by omega))
  · exact .inr (mem_slot1.mpr (by omega))

theorem mem_row0 {i : S256x256.Idx} : i ∈ row0M.view.set ↔ (i 0).val = 0 := by
  rw [row0_set]; exact LibRect.mem_unit_row 0 (by decide) ⟨rfl, rfl⟩ (by decide)

theorem mem_row255 {i : S256x256.Idx} : i ∈ row255M.view.set ↔ (i 0).val = 255 := by
  rw [row255_set]; exact LibRect.mem_unit_row 255 (by decide) ⟨rfl, rfl⟩ (by decide)

theorem rows_disjoint : Disjoint row0M.view.set row255M.view.set :=
  Finset.disjoint_left.mpr fun i h0 h1 => by
    have e0 := mem_row0.mp h0; have e1 := mem_row255.mp h1; omega

theorem slot0_emb (y : S1x256.Idx) : slot0M.view.emb y = ix3 (0 : Fin 2) (0 : Fin 1) (y 1) := by
  show rSlot0.emb (Shape.reshapeEquiv Facts₀.squeezes_S1x1x256_S1x256.numel_eq y) = _
  rw [Shape.reshapeEquiv_cons_one (n := 2) (d := ![1, 256])]
  funext a
  match a with
  | ⟨0, _⟩ => exact Fin.ext (by show 0 + 1 * 0 = 0; rfl)
  | ⟨1, _⟩ => exact Fin.ext (by show 0 + 1 * (y 0).val = 0; have hy : (y 0).val < 1 := (y 0).isLt; omega)
  | ⟨2, _⟩ => exact Fin.ext (by show 0 + 1 * (y 1).val = (y 1).val; omega)

theorem slot1_emb (y : S1x256.Idx) : slot1M.view.emb y = ix3 (1 : Fin 2) (0 : Fin 1) (y 1) := by
  show rSlot1.emb (Shape.reshapeEquiv Facts₀.squeezes_S1x1x256_S1x256.numel_eq y) = _
  rw [Shape.reshapeEquiv_cons_one (n := 2) (d := ![1, 256])]
  funext a
  match a with
  | ⟨0, _⟩ => exact Fin.ext (by show 1 + 1 * 0 = 1; rfl)
  | ⟨1, _⟩ => exact Fin.ext (by show 0 + 1 * (y 0).val = 0; have hy : (y 0).val < 1 := (y 0).isLt; omega)
  | ⟨2, _⟩ => exact Fin.ext (by show 0 + 1 * (y 1).val = (y 1).val; omega)

theorem row0_emb (y : S1x256.Idx) : row0M.view.emb y = ix2 (0 : Fin 256) (y 1) := by
  show rRow0.emb y = _
  funext a
  match a with
  | ⟨0, _⟩ => exact Fin.ext (by show 0 + 1 * (y 0).val = 0; have hy : (y 0).val < 1 := (y 0).isLt; omega)
  | ⟨1, _⟩ => exact Fin.ext (by show 0 + 1 * (y 1).val = (y 1).val; omega)

theorem row255_emb (y : S1x256.Idx) : row255M.view.emb y = ix2 (255 : Fin 256) (y 1) := by
  show rRow255.emb y = _
  funext a
  match a with
  | ⟨0, _⟩ => exact Fin.ext (by show 255 + 1 * (y 0).val = 255; have hy : (y 0).val < 1 := (y 0).isLt; omega)
  | ⟨1, _⟩ => exact Fin.ext (by show 0 + 1 * (y 1).val = (y 1).val; omega)

theorem landed0_apply (c c' : Dev nD) (fd : Buf (Elt F) (slot0M.view.loc (c : Thread nD τ)))
    (fs : Buf (Elt F) (row255M.view.loc (c' : Thread nD τ))) :
    ∀ i ∈ slot0M.view.set,
      (slot0M.view.write (Elt F) fd (row255M.view.read (Elt F) fs) Finset.univ) i
        = fs (ix2 (255 : Fin 256) ((i : S2x1x256.Idx) 2)) := by
  intro i hi
  obtain ⟨y, rfl⟩ := View.exists_emb_of_mem_set _ hi
  rw [View.write_emb_of_mem _ _ (Finset.mem_univ y), View.read_apply, row255_emb, slot0_emb]
  rfl

theorem landed1_apply (c c' : Dev nD) (fd : Buf (Elt F) (slot1M.view.loc (c : Thread nD τ)))
    (fs : Buf (Elt F) (row0M.view.loc (c' : Thread nD τ))) :
    ∀ i ∈ slot1M.view.set,
      (slot1M.view.write (Elt F) fd (row0M.view.read (Elt F) fs) Finset.univ) i
        = fs (ix2 (0 : Fin 256) ((i : S2x1x256.Idx) 2)) := by
  intro i hi
  obtain ⟨y, rfl⟩ := View.exists_emb_of_mem_set _ hi
  rw [View.write_emb_of_mem _ _ (Finset.mem_univ y), View.read_apply, row0_emb, slot1_emb]
  rfl

theorem read_slot0 (c : Dev nD) (g : Buf (Elt F) (hM.view.loc (c : Thread nD τ))) :
    hM.view.readAt (Elt F) rSlot0.toLoadRect g
      = fun i => g (ix3 (0 : Fin 2) (0 : Fin 1) (i 2)) := by
  funext x
  show g (rSlot0.toLoadRect.idx x) = _
  congr 1
  funext a
  match a with
  | ⟨0, _⟩ => exact Fin.ext (by show 0 + 1 * (x 0).val = 0; have hx : (x 0).val < 1 := (x 0).isLt; omega)
  | ⟨1, _⟩ => exact Fin.ext (by show 0 + 1 * (x 1).val = 0; have hx : (x 1).val < 1 := (x 1).isLt; omega)
  | ⟨2, _⟩ => exact Fin.ext (by show 0 + 1 * (x 2).val = (x 2).val; omega)

theorem read_slot1 (c : Dev nD) (g : Buf (Elt F) (hM.view.loc (c : Thread nD τ))) :
    hM.view.readAt (Elt F) rSlot1.toLoadRect g
      = fun i => g (ix3 (1 : Fin 2) (0 : Fin 1) (i 2)) := by
  funext x
  show g (rSlot1.toLoadRect.idx x) = _
  congr 1
  funext a
  match a with
  | ⟨0, _⟩ => exact Fin.ext (by show 1 + 1 * (x 0).val = 1; have hx : (x 0).val < 1 := (x 0).isLt; omega)
  | ⟨1, _⟩ => exact Fin.ext (by show 0 + 1 * (x 1).val = 0; have hx : (x 1).val < 1 := (x 1).isLt; omega)
  | ⟨2, _⟩ => exact Fin.ext (by show 0 + 1 * (x 2).val = (x 2).val; omega)

theorem hz2 : (![0, 0] : Fin 2 → Nat) = fun _ => 0 := funext fun a => by
  match a with
  | ⟨0, _⟩ => rfl
  | ⟨1, _⟩ => rfl

theorem read_all_x (f : (cc0_stg0_0 : Ref sig .tc).ty.Contents (Elt F)) :
    xM.view.readAt (Elt F) rAll.toLoadRect f = f :=
  Memref.readAt_unit_zero (Elt F) cc0_stg0_0 hz2 _ f

theorem write_all (f w : (cc0_stg1_0 : Ref sig .tc).ty.Contents (Elt F)) :
    (oM.access rAll : View sig .tc _ _ _).write (Elt F) f w Finset.univ = w :=
  Memref.write_access_unit_zero_univ (Elt F) cc0_stg1_0 hz2 _ f w

theorem x_set : xM.view.set = Finset.univ := View.set_whole _
end Cert.KernelIdeal.Views
end
-- ==== Proof.Bufs.lean ====
import proofs.«900540_g7700000000000541_dist_halo_stencil_i_m256_n256_v7x_i32_f32_1_alg».proof.Proof.Data
import proofs.«900540_g7700000000000541_dist_halo_stencil_i_m256_n256_v7x_i32_f32_1_alg».proof.Proof.Views
noncomputable section
namespace Cert.KernelIdeal.Proto
open Cert.KernelIdeal Cert.KernelIdeal.Gen Cert.KernelIdeal.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

theorem halo_split (c : Dev nD) (f : Buf (Elt F) ((c : Thread nD τ).loc cc0_scratch0)) :
    haloPts c f ⊣⊢ iprop(slot0Pts c f ∗ slot1Pts c f) := by
  unfold haloPts slot0Pts slot1Pts
  rw [← Views.slots_union]
  exact pointsTo_union Views.slots_disjoint

theorem halo_join (c : Dev nD) (f g : Buf (Elt F) ((c : Thread nD τ).loc cc0_scratch0)) :
    iprop(slot0Pts c f ∗ slot1Pts c g) ⊢ iprop(∃ h, haloPts c h) := by
  unfold haloPts slot0Pts slot1Pts
  iintro H
  iexists _
  rw [← Views.slots_union]
  iapply (pointsTo_join Views.slots_disjoint) $$ H

def xFull (c : Dev nD) : sProp 𝕄 := ((c : Thread nD τ).loc cc0_stg0_0) ↦{fullShare} xstg m ρ c

def xLoad (c : Dev nD) : sProp 𝕄 :=
  xM.view.loc (c : Thread nD τ)
    ↦[xM.view.set]{fullShare.left} xstg m ρ c

def xLeft (c : Dev nD) : sProp 𝕄 := ((c : Thread nD τ).loc cc0_stg0_0) ↦{fullShare.left} xstg m ρ c

def midSet : Finset (cc0_stg0_0 : Ref sig .tc).ty.Idx :=
  (Finset.univ \ row255M.view.set) \ row0M.view.set

def xRest (c : Dev nD) : sProp 𝕄 := ((c : Thread nD τ).loc cc0_stg0_0) ↦[midSet]{fullShare.right} xstg m ρ c

theorem xLoad_eq (c : Dev nD) : xLoad m ρ c = xLeft m ρ c := by unfold xLoad xLeft; rw [Views.x_set]

theorem row0_subset : row0M.view.set ⊆ Finset.univ \ row255M.view.set :=
  fun i hi => Finset.mem_sdiff.mpr ⟨Finset.mem_univ _, fun h => Finset.disjoint_left.mp Views.rows_disjoint hi h⟩

/-- The input block splits into the left half-share the loads use and, of the right half-share, its last row, its first row and the rest. -/
theorem x_split_eq (c : Dev nD) :
    xFull m ρ c = iprop(xLoad m ρ c ∗ row255Pts m ρ c ∗ row0Pts m ρ c ∗ xRest m ρ c) := by
  have hs := pointsTo_share (Ix := Unit) (Name := ℕ) (U := UU) (Lvl := ℕ) (Val := Elt F)
    (ℓ := (c : Thread nD τ).loc cc0_stg0_0) (I := Finset.univ) (f := xstg m ρ c) (PosShare.mem_left_op_right fullShare)
  have h1 := pointsTo_split_subset (Ix := Unit) (Name := ℕ) (U := UU) (Lvl := ℕ) (Val := Elt F)
    (ℓ := (c : Thread nD τ).loc cc0_stg0_0) (q := fullShare.right) (f := xstg m ρ c)
    (Finset.subset_univ row255M.view.set)
  have h2 := pointsTo_split_subset (Ix := Unit) (Name := ℕ) (U := UU) (Lvl := ℕ) (Val := Elt F)
    (ℓ := (c : Thread nD τ).loc cc0_stg0_0) (q := fullShare.right) (f := xstg m ρ c) row0_subset
  have es : xFull m ρ c = iprop(xLeft m ρ c ∗ (((c : Thread nD τ).loc cc0_stg0_0) ↦{fullShare.right} xstg m ρ c)) :=
    BI.equiv_iff.mp ⟨hs.1, hs.2⟩
  have e1 : ((((c : Thread nD τ).loc cc0_stg0_0) ↦{fullShare.right} xstg m ρ c) : sProp 𝕄)
      = iprop(row255Pts m ρ c ∗ (((c : Thread nD τ).loc cc0_stg0_0) ↦[Finset.univ \ row255M.view.set]{fullShare.right} xstg m ρ c)) :=
    BI.equiv_iff.mp ⟨h1.1, h1.2⟩
  have e2 : ((((c : Thread nD τ).loc cc0_stg0_0) ↦[Finset.univ \ row255M.view.set]{fullShare.right} xstg m ρ c) : sProp 𝕄)
      = iprop(row0Pts m ρ c ∗ xRest m ρ c) :=
    BI.equiv_iff.mp ⟨h2.1, h2.2⟩
  rw [es, e1, e2, xLoad_eq]

theorem x_split (c : Dev nD) :
    xFull m ρ c ⊣⊢ iprop(xLoad m ρ c ∗ row255Pts m ρ c ∗ row0Pts m ρ c ∗ xRest m ρ c) :=
  .of_eq (x_split_eq m ρ c)
/-- info: 'Cert.KernelIdeal.Proto.halo_split' depends on axioms: [propext, Classical.choice, Quot.sound] -/
#guard_msgs in #print axioms halo_split
/-- info: 'Cert.KernelIdeal.Proto.halo_join' depends on axioms: [propext, Classical.choice, Quot.sound] -/
#guard_msgs in #print axioms halo_join
/-- info: 'Cert.KernelIdeal.Proto.x_split' depends on axioms: [propext, Classical.choice, Quot.sound] -/
#guard_msgs in #print axioms x_split
end Cert.KernelIdeal.Proto
end
-- ==== Proof.Sends.lean ====
import proofs.«900540_g7700000000000541_dist_halo_stencil_i_m256_n256_v7x_i32_f32_1_alg».proof.Proof.Data
import proofs.«900540_g7700000000000541_dist_halo_stencil_i_m256_n256_v7x_i32_f32_1_alg».proof.Proof.Views
import Idealize.ShloMosaic.Lib.Rounds
import Idealize.ShloMosaic.Rules.PointsTo
noncomputable section
namespace Cert.KernelIdeal.Proto
open Cert.KernelIdeal Cert.KernelIdeal.Gen Cert.KernelIdeal.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

theorem landed_down (c : Dev nD) (fn : Buf (Elt F) (slot0M.view.loc (rgt c : Thread nD τ))) :
    ∀ i ∈ slot0M.view.set,
      (slot0M.view.write (Elt F) fn
          (row255M.view.read (Elt F) (xstg m ρ c)) Finset.univ) i = landed m ρ (rgt c) i := by
  intro i hi
  rw [Views.landed0_apply (rgt c) c fn (xstg m ρ c) i hi]
  unfold landed
  rw [if_pos (Views.mem_slot0.mp hi), lft_rgt]

theorem landed_up (c : Dev nD) (fn : Buf (Elt F) (slot1M.view.loc (lft c : Thread nD τ))) :
    ∀ i ∈ slot1M.view.set,
      (slot1M.view.write (Elt F) fn
          (row0M.view.read (Elt F) (xstg m ρ c)) Finset.univ) i = landed m ρ (lft c) i := by
  intro i hi
  rw [Views.landed1_apply (lft c) c fn (xstg m ρ c) i hi]
  unfold landed
  have h1 : ((i : S2x1x256.Idx) 0).val = 1 := Views.mem_slot1.mp hi
  rw [if_neg (by omega), rgt_lft]

/-- The last row is sent to the device below and becomes the first of that device's two received rows. -/
theorem wp_send_down (K : Dev nD × Fin 5 → ℕ) (c n : Dev nD) (hn : n = rgt c) (hr : hasR c)
    {hsc : (slot0M : Memref sig (Dev.tc n : Thread nD τ).2.kind .vmem S1x256 .f32).view.ref.isScScratch = false}
    {hsrc : row255M.view.WordExact} {hdst : slot0M.view.WordExact}
    {hsem : DmaTarget.Typed .vmem (.dma rcvS0.sem) (.remote (Dev.tc n : Thread nD τ) slot0M (.dma sndS0.sem) hsc)}
    {α : Type} {Q : α → sProp 𝕄} {k : PUnit → Prog (TpuEff nD τ sig (Elt F) Λ₀ .tc) α}
    (fn : Buf (Elt F) (slot0M.view.loc (rgt c : Thread nD τ)))
    (O : CellTallies nD τ sig Unit) (W : Waits sig Unit) :
    iprop(cellInv ER (sched m ρ) (K (c, 1)) (snd0Cell c) ∗ cellInv ER (sched m ρ) (K (rgt c, 3)) (rcv0Cell (rgt c))
        ∗ row255Pts m ρ c ∗ slot0Pts (rgt c) fn
        ∗ owes (c : Thread nD τ) (O + tallyAt (rcv0Cell (rgt c)) () N) W
        ∗ dutyTok ER (snd0Cell c) 0 false ∗ reached ER (snd0Cell c) 0
        ∗ dutyTok ER (rcv0Cell (rgt c)) 0 false ∗ reached ER (rcv0Cell (rgt c)) 0)
      ⊢ iprop(((cred (tallyAt (snd0Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma row255M (.remote (Dev.tc n : Thread nD τ) slot0M (.dma sndS0.sem) hsc) (.dma rcvS0.sem) hsrc hdst hsem) k) Q) := by
  subst hn
  unfold row255Pts slot0Pts
  exact Rounds.wp_send_pointsTo 𝒱₀ ER (sched m ρ) (c : Thread nD τ) none (κ₁ := K (c, 1)) (κ₂ := K (rgt c, 3))
    (r₁ := 0) (r₂ := 0) (d₁ := false) (d₂ := false) (fd := fn)
    (by rw [duties_snd0, if_pos hr]; exact Finset.mem_singleton_self _)
    (by rw [duties_rcv0, if_pos (hasL_rgt hr)]; exact Finset.mem_singleton_self _)
    () () N rfl (amount_snd0 m ρ c false) (amount_rcv0 m ρ (rgt c) false) O rfl (W := W)
    (by rw [payload_snd0]; exact BI.Entails.refl _)
    (by rw [payload_rcv0]; unfold rcv0Pay slot0Pts; exact Entails.of_eq (pointsTo_congr (landed_down m ρ c fn)))

theorem wp_send_up (K : Dev nD × Fin 5 → ℕ) (c n : Dev nD) (hn : n = lft c) (hl : hasL c)
    {hsc : (slot1M : Memref sig (Dev.tc n : Thread nD τ).2.kind .vmem S1x256 .f32).view.ref.isScScratch = false}
    {hsrc : row0M.view.WordExact} {hdst : slot1M.view.WordExact}
    {hsem : DmaTarget.Typed .vmem (.dma rcvS1.sem) (.remote (Dev.tc n : Thread nD τ) slot1M (.dma sndS1.sem) hsc)}
    {α : Type} {Q : α → sProp 𝕄} {k : PUnit → Prog (TpuEff nD τ sig (Elt F) Λ₀ .tc) α}
    (fn : Buf (Elt F) (slot1M.view.loc (lft c : Thread nD τ)))
    (O : CellTallies nD τ sig Unit) (W : Waits sig Unit) :
    iprop(cellInv ER (sched m ρ) (K (c, 2)) (snd1Cell c) ∗ cellInv ER (sched m ρ) (K (lft c, 4)) (rcv1Cell (lft c))
        ∗ row0Pts m ρ c ∗ slot1Pts (lft c) fn
        ∗ owes (c : Thread nD τ) (O + tallyAt (rcv1Cell (lft c)) () N) W
        ∗ dutyTok ER (snd1Cell c) 0 false ∗ reached ER (snd1Cell c) 0
        ∗ dutyTok ER (rcv1Cell (lft c)) 0 false ∗ reached ER (rcv1Cell (lft c)) 0)
      ⊢ iprop(((cred (tallyAt (snd1Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma row0M (.remote (Dev.tc n : Thread nD τ) slot1M (.dma sndS1.sem) hsc) (.dma rcvS1.sem) hsrc hdst hsem) k) Q) := by
  subst hn
  unfold row0Pts slot1Pts
  exact Rounds.wp_send_pointsTo 𝒱₀ ER (sched m ρ) (c : Thread nD τ) none (κ₁ := K (c, 2)) (κ₂ := K (lft c, 4))
    (r₁ := 0) (r₂ := 0) (d₁ := false) (d₂ := false) (fd := fn) (sem := SemLoc.dma rcvS1.sem)
    (by rw [duties_snd1, if_pos hl]; exact Finset.mem_singleton_self _)
    (by rw [duties_rcv1, if_pos (hasR_lft hl)]; exact Finset.mem_singleton_self _)
    () () N credit_slot1 (amount_snd1 m ρ c false) (amount_rcv1 m ρ (lft c) false) O rfl (W := W)
    (by rw [payload_snd1]; exact BI.Entails.refl _)
    (by rw [payload_rcv1]; unfold rcv1Pay slot1Pts; exact Entails.of_eq (pointsTo_congr (landed_up m ρ c fn)))
end Cert.KernelIdeal.Proto
end
-- ==== Proof.Waits.lean ====
import proofs.«900540_g7700000000000541_dist_halo_stencil_i_m256_n256_v7x_i32_f32_1_alg».proof.Proof.Data
import Idealize.ShloMosaic.Lib.Rounds
noncomputable section
namespace Cert.KernelIdeal.Proto
open Cert.KernelIdeal Cert.KernelIdeal.Gen Cert.KernelIdeal.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

section Tables
variable (c : Dev nD)

theorem wordL_iff : Scalar.cmpi .ne (Scalar.extui (Scalar.cmpi .sgt (Scalar.remsi (Scalar.divsi (Dev.word c) 1#32) 32#32) 0#32)) 0#32 = 1#1 ↔ hasL c := by revert c; decide +kernel

theorem wordR_iff : Scalar.cmpi .ne (Scalar.extui (Scalar.cmpi .slt (Scalar.remsi (Scalar.divsi (Dev.word c) 1#32) 32#32) 31#32)) 0#32 = 1#1 ↔ hasR c := by revert c; decide +kernel

theorem wordNL_iff : Scalar.cmpi .ne (Scalar.extui (Scalar.xori (Scalar.cmpi .sgt (Scalar.remsi (Scalar.divsi (Dev.word c) 1#32) 32#32) 0#32) 1#1)) 0#32 = 1#1 ↔ ¬ hasL c := by revert c; decide +kernel

theorem wordNR_iff : Scalar.cmpi .ne (Scalar.extui (Scalar.xori (Scalar.cmpi .slt (Scalar.remsi (Scalar.divsi (Dev.word c) 1#32) 32#32) 31#32) 1#1)) 0#32 = 1#1 ↔ ¬ hasR c := by revert c; decide +kernel

theorem rcv0_duties (h : 0 < c.val) : (sched m ρ).duties (rcv0Cell c) 0 = {false} := by rw [duties_rcv0, if_pos h]

theorem rcv0_expect (h : 0 < c.val) : (sched m ρ).expect (rcv0Cell c) 0 = N := by rw [expect_rcv0, if_pos h]

theorem rcv0_payload (d : Bool) : (sched m ρ).payload (rcv0Cell c) 0 d
    = (slot0M.view.loc (c : Thread nD τ) ↦[slot0M.view.set]{fullShare} landed m ρ c) := by
  rw [payload_rcv0]; rfl

theorem rcv1_duties (h : c.val < 31) : (sched m ρ).duties (rcv1Cell c) 0 = {false} := by rw [duties_rcv1, if_pos h]

theorem rcv1_expect (h : c.val < 31) : (sched m ρ).expect (rcv1Cell c) 0 = N := by rw [expect_rcv1, if_pos h]

theorem rcv1_payload (d : Bool) : (sched m ρ).payload (rcv1Cell c) 0 d
    = (slot1M.view.loc (c : Thread nD τ) ↦[slot1M.view.set]{fullShare} landed m ρ c) := by
  rw [payload_rcv1]; rfl

theorem snd0_duties (h : c.val < 31) : (sched m ρ).duties (snd0Cell c) 0 = {false} := by rw [duties_snd0, if_pos h]

theorem snd0_expect (h : c.val < 31) : (sched m ρ).expect (snd0Cell c) 0 = N := by rw [expect_snd0, if_pos h]

theorem snd0_payload (d : Bool) : (sched m ρ).payload (snd0Cell c) 0 d
    = (row255M.view.loc (c : Thread nD τ) ↦[row255M.view.set]{fullShare.right} xstg m ρ c) := by
  rw [payload_snd0]; rfl

theorem snd1_duties (h : 0 < c.val) : (sched m ρ).duties (snd1Cell c) 0 = {false} := by rw [duties_snd1, if_pos h]

theorem snd1_expect (h : 0 < c.val) : (sched m ρ).expect (snd1Cell c) 0 = N := by rw [expect_snd1, if_pos h]

theorem snd1_payload (d : Bool) : (sched m ρ).payload (snd1Cell c) 0 d
    = (row0M.view.loc (c : Thread nD τ) ↦[row0M.view.set]{fullShare.right} xstg m ρ c) := by
  rw [payload_snd1]; rfl

theorem bar_payload_true : (sched m ρ).payload (barCell c) 0 true
    = iprop((∃ f, (slot0M.view.loc (rgt c : Thread nD τ) ↦[slot0M.view.set]{fullShare} f)) ∗ reached ER (rcv0Cell (rgt c)) 0) := by
  rw [payload_bar_true]; rfl

theorem bar_payload_false : (sched m ρ).payload (barCell c) 0 false
    = iprop((∃ f, (slot1M.view.loc (lft c : Thread nD τ) ↦[slot1M.view.set]{fullShare} f)) ∗ reached ER (rcv1Cell (lft c)) 0) := by
  rw [payload_bar_false]; rfl
end Tables

/-- A cell with no duty left in any round closes at zero. -/
theorem close_cell (κ : ℕ) (g : GSem nD τ sig) (R : ℕ) (hR : R = 1 ∨ (R = 0 ∧ (sched m ρ).duties g 0 = ∅)) :
    iprop(cellInv ER (sched m ρ) κ g ∗ atPos ER g R ∅ 0) ⊢ iprop(|={Set.univ}=> semVal g 0) :=
  Rounds.cell_close ER (sched m ρ) (Set.mem_univ κ) (fun h => h) (R := R) fun r hr => by
    rcases Nat.eq_zero_or_pos r with rfl | h
    · rcases hR with rfl | ⟨-, hn⟩
      · omega
      · exact hn
    · exact duties_later m ρ _ r h
end Cert.KernelIdeal.Proto
end
-- ==== Proof.OutEq.lean ====
import proofs.«900540_g7700000000000541_dist_halo_stencil_i_m256_n256_v7x_i32_f32_1_alg».proof.Proof.Data
import proofs.«900540_g7700000000000541_dist_halo_stencil_i_m256_n256_v7x_i32_f32_1_alg».proof.Proof.Views
noncomputable section
namespace Cert.KernelIdeal.Proto
open Cert.KernelIdeal Cert.KernelIdeal.Gen Cert.KernelIdeal.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

theorem load_slot0 (c : Dev nD) (g0 : Buf (Elt F) (hM.view.loc (c : Thread nD τ)))
    (h0 : ∀ i ∈ slot0M.view.set, g0 i = landed m ρ c i) :
    hM.view.readAt (Elt F) rSlot0.toLoadRect g0 = KVal.haloOf (xstg m ρ (lft c)) 255 := by
  rw [Views.read_slot0]; funext x
  exact (h0 _ (Views.mem_slot0.mpr rfl)).trans (if_pos rfl)

theorem load_slot1 (c : Dev nD) (g1 : Buf (Elt F) (hM.view.loc (c : Thread nD τ)))
    (h1 : ∀ i ∈ slot1M.view.set, g1 i = landed m ρ c i) :
    hM.view.readAt (Elt F) rSlot1.toLoadRect g1 = KVal.haloOf (xstg m ρ (rgt c)) 0 := by
  rw [Views.read_slot1]; funext x
  exact (h1 _ (Views.mem_slot1.mpr rfl)).trans (if_neg Nat.one_ne_zero)

theorem top_has (c : Dev nD) (hl : hasL c) (g0 : Buf (Elt F) (hM.view.loc (c : Thread nD τ)))
    (h0 : ∀ i ∈ slot0M.view.set, g0 i = landed m ρ c i) :
    k0_pay4 (k0_pay1 (xM.view.readAt (Elt F) rAll.toLoadRect (xstg m ρ c))) (hM.view.readAt (Elt F) rSlot0.toLoadRect g0)
      = KVal.topV (decide (hasL c)) (xstg m ρ c) (KVal.haloOf (xstg m ρ (lft c)) 255) := by
  rw [Views.read_all_x, load_slot0 m ρ c g0 h0, decide_eq_true hl]; rfl

theorem top_no (c : Dev nD) (hl : ¬ hasL c) (v : Vec F S1x1x256 .f32) :
    k0_pay5 (k0_pay1 (xM.view.readAt (Elt F) rAll.toLoadRect (xstg m ρ c))) = KVal.topV (decide (hasL c)) (xstg m ρ c) v := by
  rw [Views.read_all_x, decide_eq_false hl]; rfl

theorem bot_has (c : Dev nD) (hr : hasR c) (g1 : Buf (Elt F) (hM.view.loc (c : Thread nD τ)))
    (h1 : ∀ i ∈ slot1M.view.set, g1 i = landed m ρ c i) :
    k0_pay6 (k0_pay1 (xM.view.readAt (Elt F) rAll.toLoadRect (xstg m ρ c))) (hM.view.readAt (Elt F) rSlot1.toLoadRect g1)
      = KVal.botV (decide (hasR c)) (xstg m ρ c) (KVal.haloOf (xstg m ρ (rgt c)) 0) := by
  rw [Views.read_all_x, load_slot1 m ρ c g1 h1, decide_eq_true hr]; rfl

theorem bot_no (c : Dev nD) (hr : ¬ hasR c) (v : Vec F S1x1x256 .f32) :
    k0_pay7 (k0_pay1 (xM.view.readAt (Elt F) rAll.toLoadRect (xstg m ρ c))) = KVal.botV (decide (hasR c)) (xstg m ρ c) v := by
  rw [Views.read_all_x, decide_eq_false hr]; rfl

/-- The stores of the product and of the two edge rows leave the block smoothing, whichever row values the device's place on the line gave. -/
theorem out_eq (c : Dev nD) (f0 : (cc0_stg1_0 : Ref sig .tc).ty.Contents (Elt F)) (top bot : FVec F S1x256 .f32)
    (ht : top = KVal.topV (decide (hasL c)) (xstg m ρ c) (KVal.haloOf (xstg m ρ (lft c)) 255))
    (hb : bot = KVal.botV (decide (hasR c)) (xstg m ρ c) (KVal.haloOf (xstg m ρ (rgt c)) 0)) :
    (oM.access rRow255 : View sig .tc _ _ _).write (Elt F)
        ((oM.access rRow0 : View sig .tc _ _ _).write (Elt F)
          ((oM.access rAll : View sig .tc _ _ _).write (Elt F) f0
            (k0_pay3 (k0_pay1 (xM.view.readAt (Elt F) rAll.toLoadRect (xstg m ρ c)))
              (iota .tc S256x256 32 [0] Facts₀.iota_S256x256_d0_w32) (iota .tc S256x256 32 [1] Facts₀.iota_S256x256_d1_w32) k0_pay2
              (Scalar.ofBits .f32 0x3F000000#32) (Scalar.ofBits .f32 0x00000000#32)) Finset.univ)
          top Finset.univ) bot Finset.univ
      = outAt m ρ c := by
  rw [Views.write_all, Views.read_all_x, ht, hb]; rfl
end Cert.KernelIdeal.Proto
end
-- ==== Proof.BodyMid.lean ====
import proofs.«900540_g7700000000000541_dist_halo_stencil_i_m256_n256_v7x_i32_f32_1_alg».proof.Proof.Data
import proofs.«900540_g7700000000000541_dist_halo_stencil_i_m256_n256_v7x_i32_f32_1_alg».proof.Proof.Views
import proofs.«900540_g7700000000000541_dist_halo_stencil_i_m256_n256_v7x_i32_f32_1_alg».proof.Proof.Bufs
import proofs.«900540_g7700000000000541_dist_halo_stencil_i_m256_n256_v7x_i32_f32_1_alg».proof.Proof.Sends
import proofs.«900540_g7700000000000541_dist_halo_stencil_i_m256_n256_v7x_i32_f32_1_alg».proof.Proof.Waits
import proofs.«900540_g7700000000000541_dist_halo_stencil_i_m256_n256_v7x_i32_f32_1_alg».proof.Proof.OutEq
import Idealize.ShloMosaic.Lib.Exec
noncomputable section
namespace Cert.KernelIdeal.Proto
open Cert.KernelIdeal Cert.KernelIdeal.Gen Cert.KernelIdeal.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]
local notation "𝕄" => MT nD τ sig Unit (Elt F) ℕ UU ℕ
variable (m : (ℓ : Loc nD τ sig) → Buf (Elt F) ℓ) (ρ : Dev nD → PrngReg)

private theorem rest_bar_mid (c : Dev nD) (hl : hasL c) (hr : hasR c) :
    bigSep ((sched m ρ).duties (barCell c) 0) (fun d => (sched m ρ).payload (barCell c) 0 d)
      = iprop(barPayL (F := F) c ∗ barPayR (F := F) c) := by
  rw [duties_bar, if_pos hl, if_pos hr, bigSep_union (by decide), bigSep_singleton, bigSep_singleton, payload_bar_false, payload_bar_true]
  rfl

private theorem bar_merge (c : Dev nD) (hl : hasL c) (hr : hasR c) (S : Finset Bool) (hS : S ⊆ (sched m ρ).duties (barCell c) 0) :
    iprop(bigSep S (fun d => (sched m ρ).payload (barCell c) 0 d)
        ∗ bigSep ((sched m ρ).duties (barCell c) 0 \ S) (fun d => (sched m ρ).payload (barCell c) 0 d))
      ⊢ iprop(barPayL (F := F) c ∗ barPayR (F := F) c) :=
  Entails.of_eq ((bigSep_sdiff_split hS).symm.trans (rest_bar_mid m ρ c hl hr))

private def midOwed (c : Dev nD) : CellTallies nD τ sig Unit := 0 + tallyAt (rcv1Cell (lft c)) () N + tallyAt (rcv0Cell (rgt c)) () N

private theorem midOwed_pos {c : Dev nD} (g : GSem nD τ sig) (u : Unit) (h : 0 < midOwed c g u) : ∃ d : Dev nD, g = rcv0Cell d ∨ g = rcv1Cell d := by
  rcases Pipeline.add_pos_cases h with h | h
  · rcases Pipeline.add_pos_cases h with h | h
    · exact (zero_pos_false h).elim
    · exact ⟨lft c, Or.inr (Pipeline.tallyAt_pos h).1⟩
  · exact ⟨rgt c, Or.inl (Pipeline.tallyAt_pos h).1⟩

private theorem midOwed_eq (c : Dev nD) :
    tallyAt (rcv0Cell (rgt c)) () N + tallyAt (barCell (rgt c)) () 1 + tallyAt (rcv1Cell (lft c)) () N
      = midOwed c + tallyAt (barCell (rgt c)) () 1 := by
  unfold midOwed; rw [zero_add]; exact (add_rotate _ _ _).symm

private theorem mid_expect_bar (c : Dev nD) (hl : 0 < c.val) (hr : c.val < 31) : (sched m ρ).expect (barCell c) 0 = 2 := by
  rw [expect_bar, if_pos hl, if_pos hr]
attribute [local sl_rounds] mid_expect_bar amount_bar
  rcv0_duties rcv0_expect rcv0_payload amount_rcv0 rcv1_duties rcv1_expect rcv1_payload amount_rcv1
  snd0_duties snd0_expect snd0_payload amount_snd0 snd1_duties snd1_expect snd1_payload amount_snd1

set_option maxHeartbeats 1600000 in
theorem sound_body_mid (K : Dev nD × Fin 5 → ℕ) (c : Dev nD) (hl : hasL c) (hr : hasR c) : SoundBody m ρ K c := by
  intro Kt
  have hlv : 0 < c.val := hl
  have hrv : c.val < 31 := hr
  have h1 := (cond1_iff c).mpr hl
  have h2 := (cond2_iff c).mpr hr
  have h5 := (cond5_iff c).mpr hr
  have h6 := (cond6_iff c).mpr hl
  unfold theBody
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId,
    dif_pos h1, dif_pos h2, dif_pos h5, dif_pos h6, dif_pos ((wordL_iff c).mpr hl), dif_pos ((wordR_iff c).mpr hr),
    dif_neg ((wordNL_iff c).not.mpr (not_not.mpr hl)), dif_neg ((wordNR_iff c).not.mpr (not_not.mpr hr)), dev1_eq c h1, dev2_eq c h2,
    show (1#32 : BitVec 32).toNat = 1 from rfl]
  unfold bodyPre ghost invs
  rw [show barUnits c = 1 + 1 from by unfold barUnits; rw [if_pos hl, if_pos hr],
    show rcv0Units c = N from if_pos hl, show rcv1Units c = N from if_pos hr, ← tallyAt_add]
  iintro ⟨⟨⟨⟨⟨#HIbar, #HIs0, #HIs1, #HIr0, #HIr1, #HIbarL, #HIbarR, #HIr0R, #HIr1L⟩, HatB, HatS0, HatS1, HatR0, HatR1,
    #HrBL, #HrBR, #HrR0R, #HrR1L, #HrS0, #HrS1, #HrR0, #HrR1, HtBL, HtBR, HtR0R, HtR1L, HtS0, HtS1⟩,
    HcB, HcR0, HcR1, #Hlev, ⟨%f0, Hhalo⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀; rw [if_pos hr, if_pos hl]; unfold owedR owedL
  ihave Hh := (halo_split c f0).1 $$ Hhalo
  icases Hh with ⟨Hs0, Hs1⟩
  iapply (Rounds.wp_signal 𝒱₀ ER (sched m ρ) (c : Thread nD τ) none (dst := (lft c : Thread nD τ)) (sem := barS) (κ := K (lft c, 0))
      (r := 0) (d := true) (k' := 1)
      (by rw [duties_bar, if_pos (hasR_lft hl)]; exact Finset.mem_union_right _ (Finset.mem_singleton_self _))
      (amount_bar m ρ (lft c) true) ()
      (tallyAt (rcv0Cell (rgt c)) () N + tallyAt (barCell (rgt c)) () 1 + tallyAt (rcv1Cell (lft c)) () N)
      (add_assoc _ _ _).symm) $$ [HO HtBL Hs0]
  · rw [payload_bar_true]; unfold barPayR; rw [rgt_lft]
    iframe # HtBL
    isplitl [HO]; · iexact HO
    iexists f0; iexact Hs0
  iintro HO
  iapply (Rounds.wp_signal 𝒱₀ ER (sched m ρ) (c : Thread nD τ) none (dst := (rgt c : Thread nD τ)) (sem := barS) (κ := K (rgt c, 0))
      (r := 0) (d := false) (k' := 1)
      (by rw [duties_bar, if_pos (hasL_rgt hr)]; exact Finset.mem_union_left _ (Finset.mem_singleton_self _))
      (amount_bar m ρ (rgt c) false) () (midOwed c) (midOwed_eq c)) $$ [HO HtBR Hs1]
  · rw [payload_bar_false]; unfold barPayL; rw [lft_rgt]
    iframe # HtBR
    isplitl [HO]; · iexact HO
    iexists f0; iexact Hs1
  iintro HO
  ihave HcB' := (cred_add _ _).1 $$ HcB
  icases HcB' with ⟨HcB1, HcB2⟩
  iapply (Rounds.wp_wait 𝒱₀ ER (sched m ρ) (c : Thread nD τ) none (κ := K (c, 0)) (sm := .reg barS) (k' := 1)
      (wpE_semWait_eq 𝒱₀ (c : Thread nD τ) none Set.univ) (Set.mem_univ _) (cr := Finsupp.single () 1) (O := midOwed c) (W := W)
      ({(SemLoc.reg barS, ())} : Waits sig Unit) (R := 0) (m := 0) (T := ∅) (Util.total_single _ _) (image_single_subset _ _ _)) $$ [HcB1 HO HatB]
  · iframe # HO HatB
    isplitl [HcB1]; · iexact HcB1
    iapply (mayWait_bar c (midOwed c) midOwed_pos); iexact Hlev
  iintro %S ⟨%hS, HO, HatB, Hpay1⟩
  rw [Finset.sdiff_empty]
  have hMW : (levAts L lv : sProp 𝕄) ⊢ MayWait (c : Thread nD τ) (.reg barS) () (midOwed c) := mayWait_bar c _ midOwed_pos
  sl_exec
  ihave Hp := (bar_merge m ρ c hl hr S hS.2.1) $$ [Hpay1 HatB_pay1]
  · iframe
  unfold barPayL barPayR
  icases Hp with ⟨⟨⟨%fL, HsL⟩, -⟩, ⟨%fR, HsR⟩, -⟩
  unfold midOwed
  ihave Hx' := (x_split m ρ c).1 $$ [Hx]
  · unfold xFull; iexact Hx
  icases Hx' with ⟨HxL, Hrow255, Hrow0, Hrest⟩
  iapply (wp_send_down m ρ K c _ (dev3_eq c h5) hr fR (0 + tallyAt (rcv1Cell (lft c)) () N) _) $$ [Hrow255 HsR HO HtS0 HtR0R]
  · iframe # ∗
  iintro ⟨HcS0, HO⟩
  iapply (wp_send_up m ρ K c _ (dev4_eq c h6) hl fL 0 _) $$ [Hrow0 HsL HO HtS1 HtR1L]
  · iframe # ∗
  iintro ⟨HcS1, HO⟩
  unfold xLoad
  ihave Hout := (Entails.of_eq (show (((c : Thread nD τ).loc cc0_stg1_0 ↦{fullShare} g1) : sProp 𝕄) = (oM.view.loc (c : Thread nD τ) ↦[Finset.univ]{fullShare} g1) from rfl)) $$ Hout
  sl_exec
  imod (close_cell m ρ (K (c, 1)) (snd0Cell c) 1 (.inl rfl)) $$ [HatS0] with HzS0
  · iframe # ∗
  imod (close_cell m ρ (K (c, 2)) (snd1Cell c) 1 (.inl rfl)) $$ [HatS1] with HzS1
  · iframe # ∗
  imod (close_cell m ρ (K (c, 3)) (rcv0Cell c) 1 (.inl rfl)) $$ [HatR0] with HzR0
  · iframe # ∗
  imod (close_cell m ρ (K (c, 4)) (rcv1Cell c) 1 (.inl rfl)) $$ [HatR1] with HzR1
  · iframe # ∗
  ihave Hh := (halo_join c (landed m ρ c) (landed m ρ c)) $$ [HatR0_pay1 HatR1_pay1]
  · unfold slot0Pts slot1Pts; iframe
  ihave Hx := (x_split m ρ c).2 $$ [HxL HatS0_pay1 HatS1_pay1 Hrest]
  · unfold xLoad row255Pts row0Pts; iframe
  rw [wp_ret]; imodintro
  iapply Hk
  unfold bodyPost Φ₁ Dat.owesAt Pipeline.owesWithin
  rw [show (dats m ρ 0 c).owed t₀.succ = 0 from rfl]
  iframe Hh HzS0 HzS1 HzR0 HzR1
  isplitl [HO]
  · iexists _
    isplitr
    swap
    · iexact HO
    · ipureintro; exact fun _ _ => Or.inl trivial
  isplitl [Hx]
  · iexists _; isplitr; · (ipureintro; rfl)
    unfold xFull; iexact Hx
  iexists _
  isplitr
  swap
  · iexact Hout
  · ipureintro
    exact out_eq m ρ c g1 _ _ (top_has m ρ c hl _ fun _ _ => rfl) (bot_has m ρ c hr _ fun _ _ => rfl)
/-- info: 'Cert.KernelIdeal.Proto.sound_body_mid' depends on axioms: [propext, Classical.choice, Quot.sound] -/
#guard_msgs in #print axioms sound_body_mid
end Cert.KernelIdeal.Proto
end
-- ==== Proof.BodyFirst.lean ====
import proofs.«900540_g7700000000000541_dist_halo_stencil_i_m256_n256_v7x_i32_f32_1_alg».proof.Proof.Data
import proofs.«900540_g7700000000000541_dist_halo_stencil_i_m256_n256_v7x_i32_f32_1_alg».proof.Proof.Views
import proofs.«900540_g7700000000000541_dist_halo_stencil_i_m256_n256_v7x_i32_f32_1_alg».proof.Proof.Bufs
import proofs.«900540_g7700000000000541_dist_halo_stencil_i_m256_n256_v7x_i32_f32_1_alg».proof.Proof.Sends
import proofs.«900540_g7700000000000541_dist_halo_stencil_i_m256_n256_v7x_i32_f32_1_alg».proof.Proof.Waits
import proofs.«900540_g7700000000000541_dist_halo_stencil_i_m256_n256_v7x_i32_f32_1_alg».proof.Proof.OutEq
import Idealize.ShloMosaic.Lib.Exec
noncomputable section
namespace Cert.KernelIdeal.Proto
open Cert.KernelIdeal Cert.KernelIdeal.Gen Cert.KernelIdeal.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]
local notation "𝕄" => MT nD τ sig Unit (Elt F) ℕ UU ℕ
variable (m : (ℓ : Loc nD τ sig) → Buf (Elt F) ℓ) (ρ : Dev nD → PrngReg)

section First
variable (c : Dev nD)

theorem first_O₀ (hL : ¬ hasL c) (hR : hasR c) :
    O₀ c = tallyAt (rcv0Cell (rgt c)) () N + tallyAt (barCell (rgt c)) () 1 := by
  unfold O₀ owedR; rw [if_pos hR, if_neg hL, add_zero]

theorem first_duties_bar (h : c.val = 0) : (sched m ρ).duties (barCell c) 0 = {true} := by
  rw [duties_bar, if_neg (by unfold hasL; omega), if_pos (by unfold hasR; omega), Finset.empty_union]

theorem first_expect_bar (h : c.val = 0) : (sched m ρ).expect (barCell c) 0 = 1 := by
  rw [expect_bar, if_neg (by unfold hasL; omega), if_pos (by unfold hasR; omega)]
end First
attribute [local sl_rounds] first_duties_bar first_expect_bar bar_payload_true amount_bar
  rcv1_duties rcv1_expect rcv1_payload amount_rcv1 snd0_duties snd0_expect snd0_payload amount_snd0

set_option maxHeartbeats 800000 in
theorem sound_body_first (K : Dev nD × Fin 5 → ℕ) (c : Dev nD) (h0 : c.val = 0) : SoundBody m ρ K c := by
  intro Kt
  have hL : ¬ hasL c := by unfold hasL; omega
  have hR : hasR c := by unfold hasR; omega
  have e2 : k0_cond2 c = 1#1 := (cond2_iff c).mpr hR
  have e5 : k0_cond5 c = 1#1 := (cond5_iff c).mpr hR
  unfold theBody
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId,
    dif_neg ((cond1_iff c).not.mpr hL), dif_pos e2, dif_pos e5, dif_neg ((cond6_iff c).not.mpr hL),
    dif_neg ((wordL_iff c).not.mpr hL), dif_pos ((wordR_iff c).mpr hR), dif_pos ((wordNL_iff c).mpr hL),
    dif_neg ((wordNR_iff c).not.mpr (not_not.mpr hR))]
  unfold bodyPre ghost invs
  rw [show barUnits c = 1 from by unfold barUnits; rw [if_neg hL, if_pos hR],
    show rcv0Units c = 0 from if_neg hL, show rcv1Units c = N from if_pos hR]
  iintro ⟨⟨⟨⟨⟨#HIbar, #HIs0, #HIs1, #HIr0, #HIr1, #HIbarL, #HIbarR, #HIr0R, #HIr1L⟩, HatB, HatS0, HatS1, HatR0, HatR1,
      #HrBL, #HrBR, #HrR0R, #HrR1L, #HrS0, #HrS1, #HrR0, #HrR1, HtBL, HtBR, HtR0R, HtR1L, HtS0, HtS1⟩,
      HcB, HcR0, HcR1, #Hlev, ⟨%f0, Hhalo⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl, first_O₀ c hL hR]
  simp only [dev2_eq c e2]
  ihave Hh := (halo_split c f0).1 $$ Hhalo
  icases Hh with ⟨Hs0, Hs1⟩
  iapply (Rounds.wp_signal 𝒱₀ ER (sched m ρ) (c : Thread nD τ) none (dst := (rgt c : Thread nD τ)) (sem := barS) (κ := K (rgt c, 0))
      (r := 0) (d := false) (by rw [duties_bar, if_pos (hasL_rgt hR)]; exact Finset.mem_union_left _ (Finset.mem_singleton_self _))
      ((amount_bar m ρ (rgt c) false).trans (by decide)) () (0 + tallyAt (rcv0Cell (rgt c)) () N) (by rw [zero_add]))
    $$ [HO HtBR Hs1]
  · rw [payload_bar_false]; unfold barPayL; rw [lft_rgt]
    iframe # HtBR
    isplitl [HO]; · iexact HO
    iexists f0; iexact Hs1
  iintro HO
  unfold slot0Pts
  have hOw : ∀ g u, 0 < (0 + tallyAt (rcv0Cell (rgt c)) () N : CellTallies nD τ sig Unit) g u → ∃ d : Dev nD, g = rcv0Cell d ∨ g = rcv1Cell d :=
    fun g u h => ⟨rgt c, Or.inl (Pipeline.tallyAt_pos (by rwa [zero_add] at h)).1⟩
  have hMW : (levAts L lv : sProp 𝕄) ⊢ MayWait (c : Thread nD τ) (.reg barS) () (0 + tallyAt (rcv0Cell (rgt c)) () N) := mayWait_bar c _ hOw
  sl_exec
  ihave Hx' := (x_split m ρ c).1 $$ [Hx]
  · unfold xFull; iexact Hx
  icases Hx' with ⟨HxL, Hrow255, Hrow0, Hrest⟩
  iapply (wp_send_down m ρ K c _ (dev3_eq c e5) hR HatB_pay1_v 0 (insert (SemLoc.reg barS, ()) W)) $$ [Hrow255 HatB_pay1 HO HtS0 HtR0R]
  · unfold slot0Pts; iframe # ∗
  iintro ⟨HcS0, HO⟩
  unfold xLoad
  ihave Hout := (Entails.of_eq (show (((c : Thread nD τ).loc cc0_stg1_0 ↦{fullShare} g1) : sProp 𝕄) = (oM.view.loc (c : Thread nD τ) ↦[Finset.univ]{fullShare} g1) from rfl)) $$ Hout
  sl_exec
  imod (close_cell m ρ (K (c, 1)) (snd0Cell c) 1 (.inl rfl)) $$ [HatS0] with HzS0
  · iframe # ∗
  imod (close_cell m ρ (K (c, 2)) (snd1Cell c) 0 (.inr ⟨rfl, by rw [duties_snd1, if_neg hL]⟩)) $$ [HatS1] with HzS1
  · iframe # ∗
  imod (close_cell m ρ (K (c, 3)) (rcv0Cell c) 0 (.inr ⟨rfl, by rw [duties_rcv0, if_neg hL]⟩)) $$ [HatR0] with HzR0
  · iframe # ∗
  imod (close_cell m ρ (K (c, 4)) (rcv1Cell c) 1 (.inl rfl)) $$ [HatR1] with HzR1
  · iframe # ∗
  ihave Hh := (halo_join c f0 (landed m ρ c)) $$ [Hs0 HatR1_pay1]
  · unfold slot0Pts slot1Pts; iframe
  ihave Hx := (x_split m ρ c).2 $$ [HxL HatS0_pay1 Hrow0 Hrest]
  · unfold xLoad row255Pts; iframe
  rw [wp_ret]; imodintro
  iapply Hk
  unfold bodyPost Φ₁ Dat.owesAt Pipeline.owesWithin
  rw [show (dats m ρ 0 c).owed t₀.succ = 0 from rfl]
  iframe Hh HzS0 HzS1 HzR0 HzR1
  isplitl [HO]
  · iexists (insert (SemLoc.dma sndS0.sem, ()) (insert (SemLoc.dma rcvS1.sem, ()) (insert (SemLoc.reg barS, ()) W)))
    isplitr; · ipureintro; exact fun _ _ => Or.inl trivial
    iexact HO
  isplitl [Hx]
  · iexists _; isplitr; · (ipureintro; rfl)
    unfold xFull; iexact Hx
  iexists _
  isplitr
  swap
  · iexact Hout
  · ipureintro
    exact out_eq m ρ c g1 _ _ (top_no m ρ c hL _) (bot_has m ρ c hR _ fun _ _ => rfl)
/-- info: 'Cert.KernelIdeal.Proto.sound_body_first' depends on axioms: [propext, Classical.choice, Quot.sound] -/
#guard_msgs in #print axioms sound_body_first
end Cert.KernelIdeal.Proto
end
-- ==== Proof.BodyLast.lean ====
import proofs.«900540_g7700000000000541_dist_halo_stencil_i_m256_n256_v7x_i32_f32_1_alg».proof.Proof.Data
import proofs.«900540_g7700000000000541_dist_halo_stencil_i_m256_n256_v7x_i32_f32_1_alg».proof.Proof.Views
import proofs.«900540_g7700000000000541_dist_halo_stencil_i_m256_n256_v7x_i32_f32_1_alg».proof.Proof.Bufs
import proofs.«900540_g7700000000000541_dist_halo_stencil_i_m256_n256_v7x_i32_f32_1_alg».proof.Proof.Sends
import proofs.«900540_g7700000000000541_dist_halo_stencil_i_m256_n256_v7x_i32_f32_1_alg».proof.Proof.Waits
import proofs.«900540_g7700000000000541_dist_halo_stencil_i_m256_n256_v7x_i32_f32_1_alg».proof.Proof.OutEq
import Idealize.ShloMosaic.Lib.Exec
noncomputable section
namespace Cert.KernelIdeal.Proto
open Cert.KernelIdeal Cert.KernelIdeal.Gen Cert.KernelIdeal.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]
local notation "𝕄" => MT nD τ sig Unit (Elt F) ℕ UU ℕ
variable (m : (ℓ : Loc nD τ sig) → Buf (Elt F) ℓ) (ρ : Dev nD → PrngReg)

section Last
variable (c : Dev nD)

theorem last_O₀ (hL : hasL c) (hR : ¬ hasR c) :
    O₀ c = (0 + tallyAt (rcv1Cell (lft c)) () N) + tallyAt (barCell (lft c)) () 1 := by
  unfold O₀; rw [if_neg hR, if_pos hL, zero_add, zero_add]; rfl

theorem last_duties_bar (h : c.val = 31) : (sched m ρ).duties (barCell c) 0 = {false} := by
  rw [duties_bar, if_pos (by unfold hasL; omega), if_neg (by unfold hasR; omega), Finset.union_empty]

theorem last_expect_bar (h : c.val = 31) : (sched m ρ).expect (barCell c) 0 = 1 := by
  rw [expect_bar, if_pos (by unfold hasL; omega), if_neg (by unfold hasR; omega)]
end Last
attribute [local sl_rounds] last_duties_bar last_expect_bar bar_payload_false amount_bar
  rcv0_duties rcv0_expect rcv0_payload amount_rcv0 snd1_duties snd1_expect snd1_payload amount_snd1

set_option maxHeartbeats 800000 in
theorem sound_body_last (K : Dev nD × Fin 5 → ℕ) (c : Dev nD) (h31 : c.val = 31) : SoundBody m ρ K c := by
  intro Kt
  have hL : hasL c := by unfold hasL; omega
  have hR : ¬ hasR c := by unfold hasR; omega
  have hc1 : k0_cond1 c = 1#1 := (cond1_iff c).mpr hL
  have hc6 : k0_cond6 c = 1#1 := (cond6_iff c).mpr hL
  unfold theBody
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId,
    dif_pos hc1, dif_neg ((cond2_iff c).not.mpr hR), dif_neg ((cond5_iff c).not.mpr hR), dif_pos hc6,
    dif_pos ((wordL_iff c).mpr hL), dif_neg ((wordR_iff c).not.mpr hR), dif_neg ((wordNL_iff c).not.mpr (not_not.mpr hL)),
    dif_pos ((wordNR_iff c).mpr hR)]
  unfold bodyPre ghost invs
  rw [show barUnits c = 1 from by unfold barUnits; rw [if_pos hL, if_neg hR],
    show rcv0Units c = N from if_pos hL, show rcv1Units c = 0 from if_neg hR]
  iintro ⟨⟨⟨⟨⟨#HIbar, #HIs0, #HIs1, #HIr0, #HIr1, #HIbarL, #HIbarR, #HIr0R, #HIr1L⟩, HatB, HatS0, HatS1, HatR0, HatR1,
      #HrBL, #HrBR, #HrR0R, #HrR1L, #HrS0, #HrS1, #HrR0, #HrR1, HtBL, HtBR, HtR0R, HtR1L, HtS0, HtS1⟩,
      HcB, HcR0, HcR1, #Hlev, ⟨%f0, Hhalo⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl, last_O₀ c hL hR]
  simp only [dev1_eq c hc1]
  ihave Hh := (halo_split c f0).1 $$ Hhalo
  icases Hh with ⟨Hs0, Hs1⟩
  iapply (Rounds.wp_signal 𝒱₀ ER (sched m ρ) (c : Thread nD τ) none (dst := (lft c : Thread nD τ)) (sem := barS) (κ := K (lft c, 0))
      (r := 0) (d := true)
      (by rw [duties_bar, if_pos (hasR_lft hL)]; exact Finset.mem_union_right _ (Finset.mem_singleton_self _))
      ((amount_bar m ρ (lft c) true).trans (by decide)) () (0 + tallyAt (rcv1Cell (lft c)) () N) rfl)
    $$ [HO HtBL Hs0]
  · rw [payload_bar_true]; unfold barPayR; rw [rgt_lft]
    iframe # HtBL
    isplitl [HO]; · iexact HO
    iexists f0; iexact Hs0
  iintro HO
  unfold slot1Pts
  have hOw : ∀ g u, 0 < (0 + tallyAt (rcv1Cell (lft c)) () N : CellTallies nD τ sig Unit) g u → ∃ d : Dev nD, g = rcv0Cell d ∨ g = rcv1Cell d :=
    fun g u h => ⟨lft c, Or.inr (Pipeline.tallyAt_pos (by rwa [zero_add] at h)).1⟩
  have hMW : (levAts L lv : sProp 𝕄) ⊢ MayWait (c : Thread nD τ) (.reg barS) () (0 + tallyAt (rcv1Cell (lft c)) () N) := mayWait_bar c _ hOw
  sl_exec
  ihave Hx' := (x_split m ρ c).1 $$ [Hx]
  · unfold xFull; iexact Hx
  icases Hx' with ⟨HxL, Hrow255, Hrow0, Hrest⟩
  iapply (wp_send_up m ρ K c _ (dev4_eq c hc6) hL HatB_pay1_v 0 (insert (SemLoc.reg barS, ()) W)) $$ [Hrow0 HatB_pay1 HO HtS1 HtR1L]
  · unfold slot1Pts; iframe # ∗
  iintro ⟨HcS1, HO⟩
  unfold xLoad
  ihave Hout := (Entails.of_eq (show (((c : Thread nD τ).loc cc0_stg1_0 ↦{fullShare} g1) : sProp 𝕄) = (oM.view.loc (c : Thread nD τ) ↦[Finset.univ]{fullShare} g1) from rfl)) $$ Hout
  sl_exec
  imod (close_cell m ρ (K (c, 1)) (snd0Cell c) 0 (.inr ⟨rfl, by rw [duties_snd0, if_neg hR]⟩)) $$ [HatS0] with HzS0
  · iframe # ∗
  imod (close_cell m ρ (K (c, 2)) (snd1Cell c) 1 (.inl rfl)) $$ [HatS1] with HzS1
  · iframe # ∗
  imod (close_cell m ρ (K (c, 3)) (rcv0Cell c) 1 (.inl rfl)) $$ [HatR0] with HzR0
  · iframe # ∗
  imod (close_cell m ρ (K (c, 4)) (rcv1Cell c) 0 (.inr ⟨rfl, by rw [duties_rcv1, if_neg hR]⟩)) $$ [HatR1] with HzR1
  · iframe # ∗
  ihave Hh := (halo_join c (landed m ρ c) f0) $$ [HatR0_pay1 Hs1]
  · unfold slot0Pts slot1Pts; iframe
  ihave Hx := (x_split m ρ c).2 $$ [HxL Hrow255 HatS1_pay1 Hrest]
  · unfold xLoad row0Pts; iframe
  rw [wp_ret]; imodintro
  iapply Hk
  unfold bodyPost Φ₁ Dat.owesAt Pipeline.owesWithin
  rw [show (dats m ρ 0 c).owed t₀.succ = 0 from rfl]
  iframe Hh HzS0 HzS1 HzR0 HzR1
  isplitl [HO]
  · iexists (insert (SemLoc.dma sndS1.sem, ()) (insert (SemLoc.dma rcvS0.sem, ()) (insert (SemLoc.reg barS, ()) W)))
    isplitr; · ipureintro; exact fun _ _ => Or.inl trivial
    iexact HO
  isplitl [Hx]
  · iexists _; isplitr; · (ipureintro; rfl)
    unfold xFull; iexact Hx
  iexists _
  isplitr
  swap
  · iexact Hout
  · ipureintro
    exact out_eq m ρ c g1 _ _ (top_has m ρ c hL _ fun _ _ => rfl) (bot_no m ρ c hR _)
/-- info: 'Cert.KernelIdeal.Proto.sound_body_last' depends on axioms: [propext, Classical.choice, Quot.sound] -/
#guard_msgs in #print axioms sound_body_last
end Cert.KernelIdeal.Proto
end
-- ==== Proof.Body.lean ====
import proofs.«900540_g7700000000000541_dist_halo_stencil_i_m256_n256_v7x_i32_f32_1_alg».proof.Proof.BodyMid
import proofs.«900540_g7700000000000541_dist_halo_stencil_i_m256_n256_v7x_i32_f32_1_alg».proof.Proof.BodyFirst
import proofs.«900540_g7700000000000541_dist_halo_stencil_i_m256_n256_v7x_i32_f32_1_alg».proof.Proof.BodyLast
noncomputable section
namespace Cert.KernelIdeal.Proto
open Cert.KernelIdeal Cert.KernelIdeal.Gen Cert.KernelIdeal.Mems
open Idealize.ShloMosaic Idealize.ShloMosaic.TcCoe Idealize.SL.Sem
variable {F : FTy → Type} [FloatOps F]
variable (m : (ℓ : Loc nD τ sig) → Buf (Elt F) ℓ) (ρ : Dev nD → PrngReg)

theorem sound_body (K : Dev nD × Fin 5 → ℕ) (c : Dev nD) : SoundBody m ρ K c := by
  by_cases h0 : c.val = 0
  · exact sound_body_first m ρ K c h0
  · by_cases h31 : c.val = 31
    · exact sound_body_last m ρ K c h31
    · exact sound_body_mid m ρ K c (Nat.pos_of_ne_zero h0) (by have h32 : c.val < 32 := c.isLt; omega)
end Cert.KernelIdeal.Proto
end
-- ==== Proof.Launch.lean ====
import proofs.«900540_g7700000000000541_dist_halo_stencil_i_m256_n256_v7x_i32_f32_1_alg».proof.Proof.Data
import proofs.«900540_g7700000000000541_dist_halo_stencil_i_m256_n256_v7x_i32_f32_1_alg».proof.Proof.Gen.KernelIdeal.Launch
import proofs.«900540_g7700000000000541_dist_halo_stencil_i_m256_n256_v7x_i32_f32_1_alg».proof.Proof.Gen.KernelIdeal.Points
import Idealize.ShloMosaic.Lib.Pipeline.Launch
import Idealize.ShloMosaic.Lib.Pipeline.Kit
import Idealize.ShloMosaic.Lib.Tactic
noncomputable section
namespace Cert.KernelIdeal.Proto
open Cert.KernelIdeal Cert.KernelIdeal.Gen Cert.KernelIdeal.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (hbody : ∀ (K : Dev nD × Fin 5 → ℕ) (c : Dev nD), SoundBody m ρ K c) (c : Dev nD) :
    BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hrest⟩, Hscr⟩, Ho, Hx, Hout⟩
  iapply (hbody K c fun _ => bodyPost m ρ c)
  unfold bodyPre
  icases Hrest with ⟨H1, H2, H3, H4⟩
  iframe
  iintro H; iexact H

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

def lineCells : Finset (GSem nD τ sig) := Finset.univ.map ⟨kcell, kcell_injective⟩

abbrev tokSem : Fin 6 → SemLoc sig × Bool := fun
  | 0 => (.reg barS, false) | 1 => (.reg barS, true) | 2 => (.dma sndS0.sem, false) | 3 => (.dma sndS1.sem, false)
  | 4 => (.dma rcvS0.sem, false) | 5 => (.dma rcvS1.sem, false)

abbrev tokOf (cj : Dev nD × Fin 6) : GSem nD τ sig × ℕ × Bool := (((cj.1 : Thread nD τ), (tokSem cj.2).1), 0, (tokSem cj.2).2)

theorem tokSem_injective : Function.Injective tokSem := by decide

theorem tokOf_injective : Function.Injective (tokOf : Dev nD × Fin 6 → GSem nD τ sig × ℕ × Bool) := by
  rintro ⟨c, j⟩ ⟨c', j'⟩ h
  have h1 : c = c' := congrArg (fun x : GSem nD τ sig × ℕ × Bool => x.1.1.1) h
  have h2 : tokSem j = tokSem j' :=
    Prod.ext (congrArg (fun x : GSem nD τ sig × ℕ × Bool => x.1.2) h) (congrArg (fun x : GSem nD τ sig × ℕ × Bool => x.2.2) h)
  rw [h1, tokSem_injective h2]

def lineToks : Finset (GSem nD τ sig × ℕ × Bool) := Finset.univ.map ⟨tokOf, tokOf_injective⟩

def u₀ : UU :=
  (initOf (Pipeline.cells cfgs cellOf_inj) (Pipeline.launchToks cfgs cellOf_inj), initOf lineCells lineToks)

def toks (c : Dev nD) : sProp 𝕄 :=
  iprop(dutyTok ER (barCell c) 0 false ∗ dutyTok ER (barCell c) 0 true ∗ dutyTok ER (snd0Cell c) 0 false ∗ dutyTok ER (snd1Cell c) 0 false
    ∗ dutyTok ER (rcv0Cell c) 0 false ∗ dutyTok ER (rcv1Cell c) 0 false)

def G (c : Dev nD) : sProp 𝕄 :=
  iprop((bigSep Finset.univ fun k : Fin 5 => roundState ER (sched m ρ) (kcell (c, k)) 0)
    ∗ (bigSep Finset.univ fun k : Fin 5 => iprop(atPos ER (kcell (c, k)) 0 ∅ 0 ∗ reached ER (kcell (c, k)) 0)) ∗ toks c)

def G' (c : Dev nD) : sProp 𝕄 := iprop(∃ K, ghost m ρ K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem fund_line : BI.own (ER (initOf lineCells lineToks)) ⊢ (|==> bigSep Finset.univ (G m ρ) : sProp 𝕄) := by
  have hX (Φ : GSem nD τ sig → sProp 𝕄) : bigSep lineCells Φ = bigSep Finset.univ fun c : Dev nD => bigSep Finset.univ fun k : Fin 5 => Φ (kcell (c, k)) := by
    unfold lineCells; rw [bigSep_map, bigSep_univ_prod]; rfl
  have hT : bigSep lineToks (fun x => (dutyTok ER x.1 x.2.1 x.2.2 : sProp 𝕄)) = bigSep Finset.univ fun c : Dev nD => toks c := by
    unfold lineToks; rw [bigSep_map, bigSep_univ_prod]
    exact bigSep_congr fun c _ => by unfold toks; rw [bigSep_fin6]; rfl
  iintro HX
  imod (Rounds.fund ER (sched m ρ) lineCells lineToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem ownSems0_eq (c : Dev nD) : (Pipeline.ownSems0 osem c : sProp 𝕄)
    = iprop(semVal (snd0Cell c) 0 ∗ semVal (snd1Cell c) 0 ∗ semVal (rcv0Cell c) 0 ∗ semVal (rcv1Cell c) 0) := by
  rw [Pipeline.ownSems0_eq_of_list c osem [0, 1, 2, 3] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  iframe

theorem core_alloc (c : Dev nD) :
    iprop(Pipeline.ownSems0 osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · iframe
  imod (show iprop((bigSep Finset.univ fun k : Fin 5 => semVal (kcell (c, k)) 0) ∗ bigSep Finset.univ fun k : Fin 5 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · iframe
  imodintro
  iframe

def records (K : Dev nD × Fin 5 → ℕ) : sProp 𝕄 :=
  iprop((bigSep Finset.univ fun ck : Dev nD × Fin 5 => cellInv ER (sched m ρ) (K ck) (kcell ck))
    ∗ bigSep Finset.univ fun ck : Dev nD × Fin 5 => reached ER (kcell ck) 0)

instance records_persistent (K : Dev nD × Fin 5 → ℕ) : BI.Persistent (records m ρ K) := by unfold records; infer_instance

theorem inv_at (K : Dev nD × Fin 5 → ℕ) (ck : Dev nD × Fin 5) :
    (bigSep Finset.univ fun ck : Dev nD × Fin 5 => (cellInv ER (sched m ρ) (K ck) (kcell ck) : sProp 𝕄)) ⊢ cellInv ER (sched m ρ) (K ck) (kcell ck) :=
  bigSep_elim (Finset.mem_univ ck)

theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

def payToks (c : Dev nD) : sProp 𝕄 :=
  iprop(dutyTok ER (barCell (lft c)) 0 true ∗ dutyTok ER (barCell (rgt c)) 0 false
    ∗ dutyTok ER (rcv0Cell (rgt c)) 0 false ∗ dutyTok ER (rcv1Cell (lft c)) 0 false
    ∗ dutyTok ER (snd0Cell c) 0 false ∗ dutyTok ER (snd1Cell c) 0 false)

def linear (c : Dev nD) : sProp 𝕄 :=
  iprop((atPos ER (barCell c) 0 ∅ 0 ∗ atPos ER (snd0Cell c) 0 ∅ 0 ∗ atPos ER (snd1Cell c) 0 ∅ 0 ∗ atPos ER (rcv0Cell c) 0 ∅ 0 ∗ atPos ER (rcv1Cell c) 0 ∅ 0)
    ∗ payToks c)

theorem ghost_intro (K : Dev nD × Fin 5 → ℕ) (c : Dev nD) : iprop(records m ρ K ∗ linear c) ⊢ G' m ρ c := by
  unfold records linear payToks G' ghost invs
  iintro ⟨⟨#HI, #HR⟩, ⟨Ha0, Ha1, Ha2, Ha3, Ha4⟩, Ht0, Ht1, Ht2, Ht3, Ht4, Ht5⟩
  iexists K
  iframe
  repeat' isplitr
  · iapply (inv_at m ρ K (c, 0)); iexact HI
  · iapply (inv_at m ρ K (c, 1)); iexact HI
  · iapply (inv_at m ρ K (c, 2)); iexact HI
  · iapply (inv_at m ρ K (c, 3)); iexact HI
  · iapply (inv_at m ρ K (c, 4)); iexact HI
  · iapply (inv_at m ρ K (lft c, 0)); iexact HI
  · iapply (inv_at m ρ K (rgt c, 0)); iexact HI
  · iapply (inv_at m ρ K (rgt c, 3)); iexact HI
  · iapply (inv_at m ρ K (lft c, 4)); iexact HI
  · iapply (reached_at (F := F) (lft c, 0)); iexact HR
  · iapply (reached_at (F := F) (rgt c, 0)); iexact HR
  · iapply (reached_at (F := F) (rgt c, 3)); iexact HR
  · iapply (reached_at (F := F) (lft c, 4)); iexact HR
  · iapply (reached_at (F := F) (c, 1)); iexact HR
  · iapply (reached_at (F := F) (c, 2)); iexact HR
  · iapply (reached_at (F := F) (c, 3)); iexact HR
  · iapply (reached_at (F := F) (c, 4)); iexact HR

/-- The duty tokens dealt per owner, handed to the neighbours that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv line (fun c : Dev nD => (dutyTok ER (barCell c) 0 false : sProp 𝕄)),
    bigSep_univ_equiv line.symm (fun c : Dev nD => (dutyTok ER (barCell c) 0 true : sProp 𝕄)),
    bigSep_univ_equiv line (fun c : Dev nD => (dutyTok ER (rcv0Cell c) 0 false : sProp 𝕄)),
    bigSep_univ_equiv line.symm (fun c : Dev nD => (dutyTok ER (rcv1Cell c) 0 false : sProp 𝕄))]
  iintro ⟨HbF, HbT, Hs0, Hs1, Hr0, Hr1⟩
  iframe Hs0 Hs1
  isplitl [HbT]; · iexact HbT
  isplitl [HbF]; · iexact HbF
  isplitl [Hr0]; · iexact Hr0
  iexact Hr1

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (sched m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; iframe #
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    iframe

theorem glob : (bigSep Finset.univ fun c => iprop(Pipeline.ownSems0 osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem hasR_lft_iff (c : Dev nD) : hasR (lft c) ↔ hasL c := by revert c; decide

theorem hasL_rgt_iff (c : Dev nD) : hasL (rgt c) ↔ hasR c := by revert c; decide

def due (c : Dev nD) : CellTallies nD τ sig Unit :=
  tallyAt (barCell c) () (barUnits c) + (tallyAt (rcv0Cell c) () (rcv0Units c) + tallyAt (rcv1Cell c) () (rcv1Units c))

/-- What the devices owe, summed over the payers, is what each device is owed, summed over the owners: the line's shift reindexes one sum into the other. -/
theorem owed_sum : (∑ d, O₀ d) = ∑ d, due d := by
  unfold O₀
  rw [Finset.sum_add_distrib, ← Equiv.sum_comp line.symm (fun d => if hasR d then owedR d else 0),
    ← Equiv.sum_comp line (fun d => if hasL d then owedL d else 0), ← Finset.sum_add_distrib]
  refine Finset.sum_congr rfl fun e _ => ?_
  show (if hasR (lft e) then owedR (lft e) else 0) + (if hasL (rgt e) then owedL (rgt e) else 0) = due e
  unfold owedR owedL due
  rw [rgt_lft, lft_rgt]
  by_cases hl : hasL e <;> by_cases hr : hasR e <;>
    simp only [barUnits, rcv0Units, rcv1Units, hasR_lft_iff, hasL_rgt_iff, hl, hr, ↓reduceIte, tallyAt_zero, ← tallyAt_add, add_zero, zero_add] <;> ac_rfl

theorem due_own (d : Dev nD) (g : GSem nD τ sig) (h : due d g ≠ 0) : g.1 = (d : Thread nD τ) := by
  by_contra hg
  refine h ?_
  unfold due
  rw [Pi.add_apply, Pi.add_apply, tallyAt_ne_cell fun e => hg (congrArg Prod.fst e), tallyAt_ne_cell fun e => hg (congrArg Prod.fst e),
    tallyAt_ne_cell fun e => hg (congrArg Prod.fst e), add_zero, add_zero]

theorem creds (c : Dev nD) :
    (Pipeline.launchCred O₀ c : sProp 𝕄)
      ⊢ iprop(cred (tallyAt (barCell c) () (barUnits c)) ∗ cred (tallyAt (rcv0Cell c) () (rcv0Units c)) ∗ cred (tallyAt (rcv1Cell c) () (rcv1Units c))) := by
  rw [Pipeline.launchCred_of_sum O₀ due owed_sum due_own c]
  exact (cred_add _ _).1.trans (sep_mono_right (cred_add _ _).1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, H2, H3⟩
  imodintro
  unfold start G'
  iframe

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ haloPts
  iintro ⟨Hs, -, Hr⟩
  iframe

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ haloPts
  iintro ⟨Hr, H1, H2, H3, H4⟩
  iframe

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main (hbody : ∀ (K : Dev nD × Fin 5 → ℕ) (c : Dev nD), SoundBody m ρ K c) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_line m ρ) $$ HX with HG
      imodintro
      iframe)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)
/-- info: 'Cert.KernelIdeal.Proto.run_main' depends on axioms: [propext, Classical.choice, Quot.sound] -/
#guard_msgs in #print axioms run_main
end Cert.KernelIdeal.Proto
end
-- ==== Proof.Final.lean ====
import proofs.«900540_g7700000000000541_dist_halo_stencil_i_m256_n256_v7x_i32_f32_1_alg».proof.Proof.Data
import Idealize.ShloMosaic.Lib.Pipeline.Cells
noncomputable section
namespace Cert.KernelIdeal.Proto
open Cert.KernelIdeal Cert.KernelIdeal.Gen Cert.KernelIdeal.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

theorem arrAt_x (c : Dev nD) :
    (dats m ρ 0 c).arrAt (0 : Fin 2) cfg0.N = (s₀ m ρ).mem (win0_0.arr.view.loc (c : Thread nD τ)) :=
  (dats m ρ 0 c).arrAt_in (0 : Fin 2) rfl _

theorem out_off : (fun a => win0_1.index (t₀ : Fin cfg0.N) a * win0_1.size a) = fun _ => 0 :=
  funext fun a => Nat.zero_mul _

theorem arrAt_out (c : Dev nD) :
    (dats m ρ 0 c).arrAt (1 : Fin 2) cfg0.N = outAt m ρ c := by
  rw [congrArg ((dats m ρ 0 c).arrAt (1 : Fin 2)) cfg0_N]
  refine ((dats m ρ 0 c).arrAt_succ (1 : Fin 2) t₀).trans ?_
  rw [if_pos (flush0_1 t₀)]
  exact Memref.write_access_unit_zero_univ (Elt F) main_v1 out_off _ _ _
end Cert.KernelIdeal.Proto
end
-- ==== Proof.Run.lean ====
import proofs.«900540_g7700000000000541_dist_halo_stencil_i_m256_n256_v7x_i32_f32_1_alg».proof.Proof.Body
import proofs.«900540_g7700000000000541_dist_halo_stencil_i_m256_n256_v7x_i32_f32_1_alg».proof.Proof.Launch
import proofs.«900540_g7700000000000541_dist_halo_stencil_i_m256_n256_v7x_i32_f32_1_alg».proof.Proof.Final
noncomputable section
namespace Cert.KernelIdeal.Proto
open Cert.KernelIdeal Cert.KernelIdeal.Gen Cert.KernelIdeal.Mems
open Idealize.ShloMosaic Idealize.ShloMosaic.TcCoe Idealize.SL.Sem
variable {F : FTy → Type} [FloatOps F]
variable (m : (ℓ : Loc nD τ sig) → Buf (Elt F) ℓ) (ρ : Dev nD → PrngReg)

theorem run : θ_run (defs (F := F)) (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  (θ_run defs _ _).mono (fun r h c => ⟨((h c (1 : Fin 2)).trans (arrAt_out m ρ c)), ((h c (0 : Fin 2)).trans (arrAt_x m ρ c))⟩)
    (run_main m ρ (sound_body m ρ))
/-- info: 'Cert.KernelIdeal.Proto.run' depends on axioms: [propext, Classical.choice, Quot.sound] -/
#guard_msgs in #print axioms run
end Cert.KernelIdeal.Proto
end
-- ==== Proof.Bits.Mems.lean ====
import proofs.«900540_g7700000000000541_dist_halo_stencil_i_m256_n256_v7x_i32_f32_1_alg».proof.Proof.Gen.Kernel.Skeleton
noncomputable section
namespace Cert.Kernel.Mems
open Idealize.ShloMosaic Idealize.ShloMosaic.TcCoe Idealize.SL.Sem
open Cert.Kernel Cert.Kernel.Gen

abbrev xM : Memref sig .tc .vmem S256x256 .f32 := Memref.whole cc0_stg0_0

abbrev oM : Memref sig .tc .vmem S256x256 .f32 := Memref.whole cc0_stg1_0

abbrev hM : Memref sig .tc .vmem S2x1x256 .f32 := Memref.whole cc0_scratch0

abbrev rSlot0 : Rect S2x1x256 := Rect.unit (s := S2x1x256) ![0, 0, 0] S1x1x256.size Facts₀.inb_S2x1x256_S1x1x256_0_0_0

abbrev rSlot1 : Rect S2x1x256 := Rect.unit (s := S2x1x256) ![1, 0, 0] S1x1x256.size Facts₀.inb_S2x1x256_S1x1x256_1_0_0

abbrev rRow0 : Rect S256x256 := Rect.unit (s := S256x256) ![0, 0] S1x256.size Facts₀.inb_S256x256_S1x256_0_0

abbrev rRow255 : Rect S256x256 := Rect.unit (s := S256x256) ![255, 0] S1x256.size Facts₀.inb_S256x256_S1x256_255_0

abbrev rAll : Rect S256x256 := Rect.unit (s := S256x256) ![0, 0] S256x256.size Facts₀.inb_S256x256_S256x256_0_0

abbrev slot0M : Memref sig .tc .vmem S1x256 .f32 := (hM.slice rSlot0 (fun _ => rfl)).squeeze S1x256 Facts₀.squeezes_S1x1x256_S1x256

abbrev slot1M : Memref sig .tc .vmem S1x256 .f32 := (hM.slice rSlot1 (fun _ => rfl)).squeeze S1x256 Facts₀.squeezes_S1x1x256_S1x256

abbrev row0M : Memref sig .tc .vmem S1x256 .f32 := xM.slice rRow0 (fun _ => rfl)

abbrev row255M : Memref sig .tc .vmem S1x256 .f32 := xM.slice rRow255 (fun _ => rfl)

abbrev sndS0 : DmaSems sig S_ := (cc0_scratch1.slice (Rect.unit (s := S2) ![0] S1.size Facts₀.inb_S2_S1_0)).squeeze S_ Facts₀.squeezes_S1_S_

abbrev sndS1 : DmaSems sig S_ := (cc0_scratch1.slice (Rect.unit (s := S2) ![1] S1.size Facts₀.inb_S2_S1_1)).squeeze S_ Facts₀.squeezes_S1_S_

abbrev rcvS0 : DmaSems sig S_ := (cc0_scratch2.slice (Rect.unit (s := S2) ![0] S1.size Facts₀.inb_S2_S1_0)).squeeze S_ Facts₀.squeezes_S1_S_

abbrev rcvS1 : DmaSems sig S_ := (cc0_scratch2.slice (Rect.unit (s := S2) ![1] S1.size Facts₀.inb_S2_S1_1)).squeeze S_ Facts₀.squeezes_S1_S_

abbrev barS : Sem sig := (SemArray.scalar (sig.barrier 0 rfl) : Sems sig S_).sem

abbrev N : ℕ := slot0M.view.dmaCredit

theorem N_pos : 0 < N := View.dmaCredit_pos _ (by decide)

theorem credit_slot1 : slot1M.view.dmaCredit = N := by decide
end Cert.Kernel.Mems
end
-- ==== Proof.Bits.KVal.lean ====
import proofs.«900540_g7700000000000541_dist_halo_stencil_i_m256_n256_v7x_i32_f32_1_alg».proof.Proof.Bits.Mems
import Idealize.ShloMosaic.Lib.ValueIdx
noncomputable section
namespace Cert.Kernel.KVal
open Idealize.ShloMosaic Idealize.ShloMosaic.ValueIdx Idealize.ShloMosaic.TcCoe Idealize.SL.Sem
open Cert.Kernel Cert.Kernel.Gen Cert.Kernel.Mems
variable {F : FTy → Type} [FloatOps F]

def haloOf (x : Vec F S256x256 .f32) (r : Fin 256) : Vec F S1x1x256 .f32 := fun i => x (ix2 r (i 2))

def mmV (x : Vec F S256x256 .f32) : FVec F S256x256 .f32 :=
  k0_pay3 (k0_pay1 x) (iota .tc S256x256 32 [0] Facts₀.iota_S256x256_d0_w32) (iota .tc S256x256 32 [1] Facts₀.iota_S256x256_d1_w32) k0_pay2
    (Scalar.ofBits .f32 0x3F000000#32) (Scalar.ofBits .f32 0x00000000#32)

def topV (hasL : Bool) (x : Vec F S256x256 .f32) (hL : Vec F S1x1x256 .f32) : FVec F S1x256 .f32 :=
  if hasL then k0_pay4 (k0_pay1 x) hL else k0_pay5 (k0_pay1 x)

def botV (hasR : Bool) (x : Vec F S256x256 .f32) (hR : Vec F S1x1x256 .f32) : FVec F S1x256 .f32 :=
  if hasR then k0_pay6 (k0_pay1 x) hR else k0_pay7 (k0_pay1 x)

def outVal (hasL hasR : Bool) (x : Vec F S256x256 .f32) (hL hR : Vec F S1x1x256 .f32) : (cc0_stg1_0 : Ref sig .tc).ty.Contents (Elt F) :=
  (oM.access rRow255 : View sig .tc _ _ _).write (Elt F)
    ((oM.access rRow0 : View sig .tc _ _ _).write (Elt F) (mmV x) (topV hasL x hL) Finset.univ)
    (botV hasR x hR) Finset.univ
end Cert.Kernel.KVal
end
-- ==== Proof.Bits.Proto.lean ====
import proofs.«900540_g7700000000000541_dist_halo_stencil_i_m256_n256_v7x_i32_f32_1_alg».proof.Proof.Bits.Mems
import proofs.«900540_g7700000000000541_dist_halo_stencil_i_m256_n256_v7x_i32_f32_1_alg».proof.Proof.Bits.KVal
import proofs.«900540_g7700000000000541_dist_halo_stencil_i_m256_n256_v7x_i32_f32_1_alg».proof.Proof.Gen.Kernel.Launch
import Idealize.ShloMosaic.Lib.Pipeline.Launch
import Idealize.ShloMosaic.Lib.Pipeline.Kit
import Idealize.ShloMosaic.Lib.Tactic
noncomputable section
namespace Cert.Kernel.Proto
open Cert.Kernel Cert.Kernel.Gen Cert.Kernel.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

abbrev UB : Type := URounds (GSem nD τ sig) Bool

abbrev UU : Type := UR sig nD τ × UB
local notation "𝕄" => MT nD τ sig Unit (Elt F) ℕ UU ℕ

abbrev EP : Emb (UR sig nD τ) (MT nD τ sig Unit (Elt F) ℕ UU ℕ) := embL

abbrev ER : Emb UB (MT nD τ sig Unit (Elt F) ℕ UU ℕ) := embR
variable (m : (ℓ : Loc nD τ sig) → Buf (Elt F) ℓ) (ρ : Dev nD → PrngReg)

def s₀ : MemSt nD τ sig (Elt F) := ⟨m, fun _ => 0, ρ⟩

def lft (c : Dev nD) : Dev nD := ⟨(c.val + 31) % 32, Nat.mod_lt _ (by decide)⟩

def rgt (c : Dev nD) : Dev nD := ⟨(c.val + 1) % 32, Nat.mod_lt _ (by decide)⟩

abbrev hasL (c : Dev nD) : Prop := 0 < c.val

abbrev hasR (c : Dev nD) : Prop := c.val < 31

theorem lft_rgt (c : Dev nD) : lft (rgt c) = c := by revert c; decide

theorem rgt_lft (c : Dev nD) : rgt (lft c) = c := by revert c; decide

theorem hasR_lft {c : Dev nD} (h : hasL c) : hasR (lft c) := by revert c; decide

theorem hasL_rgt {c : Dev nD} (h : hasR c) : hasL (rgt c) := by revert c; decide

theorem lft_val {c : Dev nD} (h : hasL c) : (lft c).val + 1 = c.val := by revert c; decide

theorem rgt_val {c : Dev nD} (h : hasR c) : (rgt c).val = c.val + 1 := by revert c; decide

def line : Dev nD ≃ Dev nD := ⟨rgt, lft, lft_rgt, rgt_lft⟩

theorem cond1_iff (c : Dev nD) : k0_cond1 c = 1#1 ↔ hasL c := by revert c; decide +kernel

theorem cond2_iff (c : Dev nD) : k0_cond2 c = 1#1 ↔ hasR c := by revert c; decide +kernel

theorem cond5_iff (c : Dev nD) : k0_cond5 c = 1#1 ↔ hasR c := by revert c; decide +kernel

theorem cond6_iff (c : Dev nD) : k0_cond6 c = 1#1 ↔ hasL c := by revert c; decide +kernel

theorem dev1_eq (c : Dev nD) (h : k0_cond1 c = 1#1) : (⟨k0_dev1 c, Facts₀.k0_dev1_lt c h⟩ : Dev nD) = lft c := Fin.ext (k0_dev1_eq c)

theorem dev2_eq (c : Dev nD) (h : k0_cond2 c = 1#1) : (⟨k0_dev2 c, Facts₀.k0_dev2_lt c h⟩ : Dev nD) = rgt c := Fin.ext (k0_dev2_eq c)

theorem dev3_eq (c : Dev nD) (h : k0_cond5 c = 1#1) : (⟨k0_dev3 c, Facts₀.k0_dev3_lt c h⟩ : Dev nD) = rgt c := Fin.ext (k0_dev3_eq c)

theorem dev4_eq (c : Dev nD) (h : k0_cond6 c = 1#1) : (⟨k0_dev4 c, Facts₀.k0_dev4_lt c h⟩ : Dev nD) = lft c := Fin.ext (k0_dev4_eq c)

abbrev barCell (c : Dev nD) : GSem nD τ sig := ((c : Thread nD τ), .reg barS)

abbrev snd0Cell (c : Dev nD) : GSem nD τ sig := ((c : Thread nD τ), .dma sndS0.sem)

abbrev snd1Cell (c : Dev nD) : GSem nD τ sig := ((c : Thread nD τ), .dma sndS1.sem)

abbrev rcv0Cell (c : Dev nD) : GSem nD τ sig := ((c : Thread nD τ), .dma rcvS0.sem)

abbrev rcv1Cell (c : Dev nD) : GSem nD τ sig := ((c : Thread nD τ), .dma rcvS1.sem)

abbrev osem : Fin 4 → SemLoc sig := fun | 0 => .dma sndS0.sem | 1 => .dma sndS1.sem | 2 => .dma rcvS0.sem | 3 => .dma rcvS1.sem

abbrev csem : Fin 5 → SemLoc sig := fun | 0 => .reg barS | 1 => .dma sndS0.sem | 2 => .dma sndS1.sem | 3 => .dma rcvS0.sem | 4 => .dma rcvS1.sem

abbrev kcell (ck : Dev nD × Fin 5) : GSem nD τ sig := ((ck.1 : Thread nD τ), csem ck.2)

def xstg (c : Dev nD) : (cc0_stg0_0 : Ref sig .tc).ty.Contents (Elt F) :=
  (win0_0.blk (0 : Fin 1)).view.read (Elt F) ((s₀ m ρ).mem ((c : Thread nD τ).loc main_arg0))

def landed (c : Dev nD) : Buf (Elt F) (hM.view.loc (c : Thread nD τ)) := fun i =>
  if (i 0).val = 0 then xstg m ρ (lft c) (ValueIdx.ix2 (255 : Fin 256) (i 2)) else xstg m ρ (rgt c) (ValueIdx.ix2 (0 : Fin 256) (i 2))

def slot0Pts (c : Dev nD) (f : Buf (Elt F) (hM.view.loc (c : Thread nD τ))) : sProp 𝕄 :=
  slot0M.view.loc (c : Thread nD τ) ↦[slot0M.view.set]{fullShare} f

def slot1Pts (c : Dev nD) (f : Buf (Elt F) (hM.view.loc (c : Thread nD τ))) : sProp 𝕄 :=
  slot1M.view.loc (c : Thread nD τ) ↦[slot1M.view.set]{fullShare} f

def row255Pts (c : Dev nD) : sProp 𝕄 :=
  row255M.view.loc (c : Thread nD τ) ↦[row255M.view.set]{fullShare.right} xstg m ρ c

def row0Pts (c : Dev nD) : sProp 𝕄 :=
  row0M.view.loc (c : Thread nD τ) ↦[row0M.view.set]{fullShare.right} xstg m ρ c

def barPayL (c : Dev nD) : sProp 𝕄 := iprop((∃ f, slot1Pts (lft c) f) ∗ reached ER (rcv1Cell (lft c)) 0)

def barPayR (c : Dev nD) : sProp 𝕄 := iprop((∃ f, slot0Pts (rgt c) f) ∗ reached ER (rcv0Cell (rgt c)) 0)

def rcv0Pay (c : Dev nD) : sProp 𝕄 := slot0Pts c (landed m ρ c)

def rcv1Pay (c : Dev nD) : sProp 𝕄 := slot1Pts c (landed m ρ c)

def snd0Pay (c : Dev nD) : sProp 𝕄 := row255Pts m ρ c

def snd1Pay (c : Dev nD) : sProp 𝕄 := row0Pts m ρ c

/-- Every semaphore is used once: a device signals each neighbour once on the barrier and sends it one row, and waits for the same from them. -/
def sched : Rounds.Schedule (GSem nD τ sig) Bool 𝕄 where
  duties g r :=
    if r = 0 ∧ g.1.2 = .tc then
      if g.2 = .reg barS then (if hasL g.1.1 then {false} else ∅) ∪ (if hasR g.1.1 then {true} else ∅)
      else if g.2 = .dma sndS0.sem then (if hasR g.1.1 then {false} else ∅)
      else if g.2 = .dma sndS1.sem then (if hasL g.1.1 then {false} else ∅)
      else if g.2 = .dma rcvS0.sem then (if hasL g.1.1 then {false} else ∅)
      else if g.2 = .dma rcvS1.sem then (if hasR g.1.1 then {false} else ∅)
      else ∅
    else ∅
  unitless _ := False
  amount g _ _ := if g.2 = .reg barS then 1 else N
  payload g _ d :=
    if g.2 = .reg barS then (if d then barPayR g.1.1 else barPayL g.1.1)
    else if g.2 = .dma rcvS0.sem then rcv0Pay m ρ g.1.1
    else if g.2 = .dma rcvS1.sem then rcv1Pay m ρ g.1.1
    else if g.2 = .dma sndS0.sem then snd0Pay m ρ g.1.1
    else if g.2 = .dma sndS1.sem then snd1Pay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched m ρ).payload g r d) := by
  show BI.Storable upEmb (if g.2 = .reg barS then (if d then barPayR g.1.1 else barPayL g.1.1)
    else if g.2 = .dma rcvS0.sem then rcv0Pay m ρ g.1.1
    else if g.2 = .dma rcvS1.sem then rcv1Pay m ρ g.1.1
    else if g.2 = .dma sndS0.sem then snd0Pay m ρ g.1.1
    else if g.2 = .dma sndS1.sem then snd1Pay m ρ g.1.1
    else iprop(emp))
  unfold barPayR barPayL rcv0Pay rcv1Pay snd0Pay snd1Pay slot0Pts slot1Pts row255Pts row0Pts
  (repeat' split) <;> infer_instance
section Sched
variable (c : Dev nD)

theorem duties_bar : (sched m ρ).duties (barCell c) 0 = (if hasL c then {false} else ∅) ∪ (if hasR c then {true} else ∅) := by
  dsimp only [sched]; rw [if_pos ⟨rfl, rfl⟩]; rfl

theorem duties_snd0 : (sched m ρ).duties (snd0Cell c) 0 = if hasR c then {false} else ∅ := by
  dsimp only [sched]; rw [if_pos ⟨rfl, rfl⟩]; rfl

theorem duties_snd1 : (sched m ρ).duties (snd1Cell c) 0 = if hasL c then {false} else ∅ := by
  dsimp only [sched]; rw [if_pos ⟨rfl, rfl⟩]; rfl

theorem duties_rcv0 : (sched m ρ).duties (rcv0Cell c) 0 = if hasL c then {false} else ∅ := by
  dsimp only [sched]; rw [if_pos ⟨rfl, rfl⟩]; rfl

theorem duties_rcv1 : (sched m ρ).duties (rcv1Cell c) 0 = if hasR c then {false} else ∅ := by
  dsimp only [sched]; rw [if_pos ⟨rfl, rfl⟩]; rfl

theorem duties_later (g : GSem nD τ sig) : ∀ r, 1 ≤ r → (sched m ρ).duties g r = ∅ :=
  fun r hr => by dsimp only [sched]; rw [if_neg fun h => by omega]

theorem amount_bar (d : Bool) : (sched m ρ).amount (barCell c) 0 d = 1 := rfl

theorem amount_snd0 (d : Bool) : (sched m ρ).amount (snd0Cell c) 0 d = N := rfl

theorem amount_snd1 (d : Bool) : (sched m ρ).amount (snd1Cell c) 0 d = N := rfl

theorem amount_rcv0 (d : Bool) : (sched m ρ).amount (rcv0Cell c) 0 d = N := rfl

theorem amount_rcv1 (d : Bool) : (sched m ρ).amount (rcv1Cell c) 0 d = N := rfl

theorem payload_bar_false : (sched m ρ).payload (barCell c) 0 false = barPayL c := rfl

theorem payload_bar_true : (sched m ρ).payload (barCell c) 0 true = barPayR c := rfl

theorem payload_rcv0 (d : Bool) : (sched m ρ).payload (rcv0Cell c) 0 d = rcv0Pay m ρ c := rfl

theorem payload_rcv1 (d : Bool) : (sched m ρ).payload (rcv1Cell c) 0 d = rcv1Pay m ρ c := rfl

theorem payload_snd0 (d : Bool) : (sched m ρ).payload (snd0Cell c) 0 d = snd0Pay m ρ c := rfl

theorem payload_snd1 (d : Bool) : (sched m ρ).payload (snd1Cell c) 0 d = snd1Pay m ρ c := rfl

theorem expect_bar : (sched m ρ).expect (barCell c) 0 = (if hasL c then 1 else 0) + (if hasR c then 1 else 0) := by
  unfold Schedule.expect Schedule.amountOf
  rw [duties_bar, Finset.sum_congr rfl fun d _ => amount_bar m ρ c d, Finset.sum_const, smul_eq_mul, Nat.mul_one]
  by_cases hl : hasL c <;> by_cases hr : hasR c <;> simp [hl, hr]

theorem expect_snd0 : (sched m ρ).expect (snd0Cell c) 0 = if hasR c then N else 0 := by
  unfold Schedule.expect Schedule.amountOf; rw [duties_snd0]
  by_cases hr : hasR c
  · rw [if_pos hr, if_pos hr, Finset.sum_singleton, amount_snd0]
  · rw [if_neg hr, if_neg hr, Finset.sum_empty]

theorem expect_snd1 : (sched m ρ).expect (snd1Cell c) 0 = if hasL c then N else 0 := by
  unfold Schedule.expect Schedule.amountOf; rw [duties_snd1]
  by_cases hl : hasL c
  · rw [if_pos hl, if_pos hl, Finset.sum_singleton, amount_snd1]
  · rw [if_neg hl, if_neg hl, Finset.sum_empty]

theorem expect_rcv0 : (sched m ρ).expect (rcv0Cell c) 0 = if hasL c then N else 0 := by
  unfold Schedule.expect Schedule.amountOf; rw [duties_rcv0]
  by_cases hl : hasL c
  · rw [if_pos hl, if_pos hl, Finset.sum_singleton, amount_rcv0]
  · rw [if_neg hl, if_neg hl, Finset.sum_empty]

theorem expect_rcv1 : (sched m ρ).expect (rcv1Cell c) 0 = if hasR c then N else 0 := by
  unfold Schedule.expect Schedule.amountOf; rw [duties_rcv1]
  by_cases hr : hasR c
  · rw [if_pos hr, if_pos hr, Finset.sum_singleton, amount_rcv1]
  · rw [if_neg hr, if_neg hr, Finset.sum_empty]
end Sched

def owedR (c : Dev nD) : CellTallies nD τ sig Unit := tallyAt (rcv0Cell (rgt c)) () N + tallyAt (barCell (rgt c)) () 1

def owedL (c : Dev nD) : CellTallies nD τ sig Unit := tallyAt (rcv1Cell (lft c)) () N + tallyAt (barCell (lft c)) () 1

def O₀ (c : Dev nD) : CellTallies nD τ sig Unit := (if hasR c then owedR c else 0) + (if hasL c then owedL c else 0)

def L (g : GSem nD τ sig) : Finset Unit := if g.1.2 = .tc then {()} else ∅

/-- A barrier wait comes before the receive waits it makes safe, and a send wait owes nothing. -/
def lv (g : GSem nD τ sig) (_ : Unit) : ℕ :=
  if g.2 = .reg barS then 1 else if g.2 = .dma rcvS0.sem ∨ g.2 = .dma rcvS1.sem then 2 else 0

theorem L_of_ne (g : GSem nD τ sig) (h : g.1.2 ≠ .tc) : L g = ∅ := if_neg h

theorem L_tc (c : Dev nD) (sm : SemLoc sig) : L ((c : Thread nD τ), sm) = {()} := if_pos rfl

theorem lv_bar (c : Dev nD) : lv (barCell c) () = 1 := rfl

theorem lv_rcv0 (c : Dev nD) : lv (rcv0Cell c) () = 2 := rfl

theorem lv_rcv1 (c : Dev nD) : lv (rcv1Cell c) () = 2 := rfl

theorem lv_other (c : Dev nD) (q : DmaSem sig) (h0 : SemLoc.dma q ≠ (.dma rcvS0.sem : SemLoc sig)) (h1 : SemLoc.dma q ≠ (.dma rcvS1.sem : SemLoc sig)) :
    lv ((c : Thread nD τ), .dma q) () = 0 := by
  unfold lv; rw [if_neg (fun h => by cases h), if_neg (fun h => h.elim h0 h1)]

theorem owedR_pos {c : Dev nD} {g : GSem nD τ sig} {u : Unit} (h : 0 < owedR c g u) : g = rcv0Cell (rgt c) ∨ g = barCell (rgt c) := by
  rcases Pipeline.add_pos_cases h with h | h
  · exact Or.inl (Pipeline.tallyAt_pos h).1
  · exact Or.inr (Pipeline.tallyAt_pos h).1

theorem owedL_pos {c : Dev nD} {g : GSem nD τ sig} {u : Unit} (h : 0 < owedL c g u) : g = rcv1Cell (lft c) ∨ g = barCell (lft c) := by
  rcases Pipeline.add_pos_cases h with h | h
  · exact Or.inl (Pipeline.tallyAt_pos h).1
  · exact Or.inr (Pipeline.tallyAt_pos h).1

theorem zero_pos_false {g : GSem nD τ sig} {u : Unit} (h : 0 < (0 : CellTallies nD τ sig Unit) g u) : False := by
  rw [Pi.zero_apply, Finsupp.zero_apply] at h; exact Nat.lt_irrefl 0 h

theorem O₀_pos {c : Dev nD} {g : GSem nD τ sig} {u : Unit} (h : 0 < O₀ c g u) :
    ∃ d : Dev nD, g = rcv0Cell d ∨ g = rcv1Cell d ∨ g = barCell d := by
  unfold O₀ at h
  rcases Pipeline.add_pos_cases h with h | h
  · by_cases hr : hasR c
    · rw [if_pos hr] at h; rcases owedR_pos h with rfl | rfl
      · exact ⟨rgt c, Or.inl rfl⟩
      · exact ⟨rgt c, Or.inr (Or.inr rfl)⟩
    · rw [if_neg hr] at h; exact (zero_pos_false h).elim
  · by_cases hl : hasL c
    · rw [if_pos hl] at h; rcases owedL_pos h with rfl | rfl
      · exact ⟨lft c, Or.inr (Or.inl rfl)⟩
      · exact ⟨lft c, Or.inr (Or.inr rfl)⟩
    · rw [if_neg hl] at h; exact (zero_pos_false h).elim

theorem mayWait_low (c : Dev nD) (q : DmaSem sig) (h0 : SemLoc.dma q ≠ (.dma rcvS0.sem : SemLoc sig)) (h1 : SemLoc.dma q ≠ (.dma rcvS1.sem : SemLoc sig))
    (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [lv_other c q h0 h1]
    obtain ⟨d, rfl | rfl | rfl⟩ := O₀_pos hg
    · exact ⟨by rw [L_tc]; exact Finset.mem_singleton_self _, by rw [lv_rcv0]; decide⟩
    · exact ⟨by rw [L_tc]; exact Finset.mem_singleton_self _, by rw [lv_rcv1]; decide⟩
    · exact ⟨by rw [L_tc]; exact Finset.mem_singleton_self _, by rw [lv_bar]; decide⟩
  · rw [MayWait_zero]; iintro -; iempintro

theorem mayWait_bar (c : Dev nD) (O : CellTallies nD τ sig Unit)
    (hO : ∀ g u, 0 < O g u → ∃ d : Dev nD, g = rcv0Cell d ∨ g = rcv1Cell d) :
    (levAts L lv : sProp 𝕄) ⊢ MayWait (c : Thread nD τ) (.reg barS) () O := by
  refine Pipeline.mayWait_of_levAts (by rw [L_tc]; exact Finset.mem_singleton_self _) fun g u hg => ?_
  rw [lv_bar]
  obtain ⟨d, rfl | rfl⟩ := hO g u hg
  · exact ⟨by rw [L_tc]; exact Finset.mem_singleton_self _, by rw [lv_rcv0]; decide⟩
  · exact ⟨by rw [L_tc]; exact Finset.mem_singleton_self _, by rw [lv_rcv1]; decide⟩
end Cert.Kernel.Proto
end
-- ==== Proof.Bits.Data.lean ====
import proofs.«900540_g7700000000000541_dist_halo_stencil_i_m256_n256_v7x_i32_f32_1_alg».proof.Proof.Bits.Proto
import proofs.«900540_g7700000000000541_dist_halo_stencil_i_m256_n256_v7x_i32_f32_1_alg».proof.Proof.Gen.Kernel.Points
noncomputable section
namespace Cert.Kernel.Proto
open Cert.Kernel Cert.Kernel.Gen Cert.Kernel.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

theorem cfg0_N : cfg0.N = 1 := by decide

def t₀ : Fin cfg0.N := ⟨0, by rw [cfg0_N]; decide⟩

theorem fin_N (t : Fin cfg0.N) : t = t₀ := by
  obtain ⟨t, ht⟩ := t; have := cfg0_N; exact Fin.ext (by simp only [t₀]; omega)

def outAt (c : Dev nD) : (cc0_stg1_0 : Ref sig .tc).ty.Contents (Elt F) :=
  KVal.outVal (decide (hasL c)) (decide (hasR c)) (xstg m ρ c) (KVal.haloOf (xstg m ρ (lft c)) 255) (KVal.haloOf (xstg m ρ (rgt c)) 0)

def invs (K : Dev nD × Fin 5 → ℕ) (c : Dev nD) : sProp 𝕄 :=
  iprop(cellInv ER (sched m ρ) (K (c, 0)) (barCell c) ∗ cellInv ER (sched m ρ) (K (c, 1)) (snd0Cell c) ∗ cellInv ER (sched m ρ) (K (c, 2)) (snd1Cell c)
    ∗ cellInv ER (sched m ρ) (K (c, 3)) (rcv0Cell c) ∗ cellInv ER (sched m ρ) (K (c, 4)) (rcv1Cell c)
    ∗ cellInv ER (sched m ρ) (K (lft c, 0)) (barCell (lft c)) ∗ cellInv ER (sched m ρ) (K (rgt c, 0)) (barCell (rgt c))
    ∗ cellInv ER (sched m ρ) (K (rgt c, 3)) (rcv0Cell (rgt c)) ∗ cellInv ER (sched m ρ) (K (lft c, 4)) (rcv1Cell (lft c)))

instance invs_persistent (K : Dev nD × Fin 5 → ℕ) (c : Dev nD) : BI.Persistent (invs m ρ K c) := by unfold invs; infer_instance

def ghost (K : Dev nD × Fin 5 → ℕ) (c : Dev nD) : sProp 𝕄 :=
  iprop(invs m ρ K c
    ∗ atPos ER (barCell c) 0 ∅ 0 ∗ atPos ER (snd0Cell c) 0 ∅ 0 ∗ atPos ER (snd1Cell c) 0 ∅ 0 ∗ atPos ER (rcv0Cell c) 0 ∅ 0 ∗ atPos ER (rcv1Cell c) 0 ∅ 0
    ∗ reached ER (barCell (lft c)) 0 ∗ reached ER (barCell (rgt c)) 0 ∗ reached ER (rcv0Cell (rgt c)) 0 ∗ reached ER (rcv1Cell (lft c)) 0
    ∗ reached ER (snd0Cell c) 0 ∗ reached ER (snd1Cell c) 0 ∗ reached ER (rcv0Cell c) 0 ∗ reached ER (rcv1Cell c) 0
    ∗ dutyTok ER (barCell (lft c)) 0 true ∗ dutyTok ER (barCell (rgt c)) 0 false
    ∗ dutyTok ER (rcv0Cell (rgt c)) 0 false ∗ dutyTok ER (rcv1Cell (lft c)) 0 false
    ∗ dutyTok ER (snd0Cell c) 0 false ∗ dutyTok ER (snd1Cell c) 0 false)

abbrev barUnits (c : Dev nD) : ℕ := (if hasL c then 1 else 0) + (if hasR c then 1 else 0)

abbrev rcv0Units (c : Dev nD) : ℕ := if hasL c then N else 0

abbrev rcv1Units (c : Dev nD) : ℕ := if hasR c then N else 0

def start (c : Dev nD) : sProp 𝕄 :=
  iprop((∃ K, ghost m ρ K c) ∗ cred (tallyAt (barCell c) () (barUnits c)) ∗ cred (tallyAt (rcv0Cell c) () (rcv0Units c))
    ∗ cred (tallyAt (rcv1Cell c) () (rcv1Units c)) ∗ levAts L lv)

def haloPts (c : Dev nD) (f : Buf (Elt F) ((c : Thread nD τ).loc cc0_scratch0)) : sProp 𝕄 := ((c : Thread nD τ).loc cc0_scratch0) ↦{fullShare} f

def Φ₀ (c : Dev nD) : sProp 𝕄 := iprop(start m ρ c ∗ ∃ f, haloPts c f)

def Φ₁ (c : Dev nD) : sProp 𝕄 :=
  iprop((∃ f, haloPts c f) ∗ semVal (snd0Cell c) 0 ∗ semVal (snd1Cell c) 0 ∗ semVal (rcv0Cell c) 0 ∗ semVal (rcv1Cell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 5 → ℕ) (c : Dev nD) : sProp 𝕄 :=
  iprop((ghost m ρ K c ∗ cred (tallyAt (barCell c) () (barUnits c)) ∗ cred (tallyAt (rcv0Cell c) () (rcv0Units c))
      ∗ cred (tallyAt (rcv1Cell c) () (rcv1Units c)) ∗ levAts L lv ∗ ∃ f, haloPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

def SoundBody (K : Dev nD × Fin 5 → ℕ) (c : Dev nD) : Prop :=
  ∀ Kt : PUnit → sProp 𝕄,
    iprop(bodyPre m ρ K c ∗ (bodyPost m ρ c -∗ Kt ⟨⟩))
      ⊢ wp frame (wpE (defs₀ (F := F)) 𝒱₀ c none) Set.univ (theBody (F := F)) Kt
end Cert.Kernel.Proto
end
-- ==== Proof.Bits.Views.lean ====
import proofs.«900540_g7700000000000541_dist_halo_stencil_i_m256_n256_v7x_i32_f32_1_alg».proof.Proof.Bits.Mems
import proofs.«900540_g7700000000000541_dist_halo_stencil_i_m256_n256_v7x_i32_f32_1_alg».proof.Proof.Bits.KVal
import proofs.«900540_g7700000000000541_dist_halo_stencil_i_m256_n256_v7x_i32_f32_1_alg».proof.Proof.LibRect
import Idealize.ShloMosaic.Lib.Pipeline.Value
import Idealize.ShloMosaic.Lib.ValueIdx
noncomputable section
namespace Cert.Kernel.Views
open Cert
open Idealize.ShloMosaic Idealize.ShloMosaic.ValueIdx Idealize.ShloMosaic.TcCoe Idealize.SL.Sem
open Cert.Kernel Cert.Kernel.Gen Cert.Kernel.Mems
variable {F : FTy → Type} [FloatOps F]

theorem slot0_set : slot0M.view.set = rSlot0.set := by
  show (((View.whole cc0_scratch0 : View sig .tc _ _ _).slice rSlot0).reshape S1x256 _).set = _
  rw [View.set_reshape, View.set_slice_whole]

theorem slot1_set : slot1M.view.set = rSlot1.set := by
  show (((View.whole cc0_scratch0 : View sig .tc _ _ _).slice rSlot1).reshape S1x256 _).set = _
  rw [View.set_reshape, View.set_slice_whole]

theorem row0_set : row0M.view.set = rRow0.set := by
  show ((View.whole cc0_stg0_0 : View sig .tc _ _ _).slice rRow0).set = _
  rw [View.set_slice_whole]

theorem row255_set : row255M.view.set = rRow255.set := by
  show ((View.whole cc0_stg0_0 : View sig .tc _ _ _).slice rRow255).set = _
  rw [View.set_slice_whole]

theorem mem_slot0 {i : S2x1x256.Idx} : i ∈ slot0M.view.set ↔ (i 0).val = 0 := by
  rw [slot0_set]; exact LibRect.mem_unit_row 0 (by decide) ⟨rfl, rfl⟩ (by decide)

theorem mem_slot1 {i : S2x1x256.Idx} : i ∈ slot1M.view.set ↔ (i 0).val = 1 := by
  rw [slot1_set]; exact LibRect.mem_unit_row 1 (by decide) ⟨rfl, rfl⟩ (by decide)

theorem slots_disjoint : Disjoint slot0M.view.set slot1M.view.set :=
  Finset.disjoint_left.mpr fun i h0 h1 => by
    have e0 := mem_slot0.mp h0; have e1 := mem_slot1.mp h1; omega

theorem slots_union : slot0M.view.set ∪ slot1M.view.set = Finset.univ := by
  ext i
  simp only [Finset.mem_union, Finset.mem_univ, iff_true]
  have h0 : ((i : S2x1x256.Idx) 0).val < 2 := (i 0).isLt
  rcases Nat.lt_or_ge ((i : S2x1x256.Idx) 0).val 1 with h | h
  · exact .inl (mem_slot0.mpr (by omega))
  · exact .inr (mem_slot1.mpr (by omega))

theorem mem_row0 {i : S256x256.Idx} : i ∈ row0M.view.set ↔ (i 0).val = 0 := by
  rw [row0_set]; exact LibRect.mem_unit_row 0 (by decide) ⟨rfl, rfl⟩ (by decide)

theorem mem_row255 {i : S256x256.Idx} : i ∈ row255M.view.set ↔ (i 0).val = 255 := by
  rw [row255_set]; exact LibRect.mem_unit_row 255 (by decide) ⟨rfl, rfl⟩ (by decide)

theorem rows_disjoint : Disjoint row0M.view.set row255M.view.set :=
  Finset.disjoint_left.mpr fun i h0 h1 => by
    have e0 := mem_row0.mp h0; have e1 := mem_row255.mp h1; omega

theorem slot0_emb (y : S1x256.Idx) : slot0M.view.emb y = ix3 (0 : Fin 2) (0 : Fin 1) (y 1) := by
  show rSlot0.emb (Shape.reshapeEquiv Facts₀.squeezes_S1x1x256_S1x256.numel_eq y) = _
  rw [Shape.reshapeEquiv_cons_one (n := 2) (d := ![1, 256])]
  funext a
  match a with
  | ⟨0, _⟩ => exact Fin.ext (by show 0 + 1 * 0 = 0; rfl)
  | ⟨1, _⟩ => exact Fin.ext (by show 0 + 1 * (y 0).val = 0; have hy : (y 0).val < 1 := (y 0).isLt; omega)
  | ⟨2, _⟩ => exact Fin.ext (by show 0 + 1 * (y 1).val = (y 1).val; omega)

theorem slot1_emb (y : S1x256.Idx) : slot1M.view.emb y = ix3 (1 : Fin 2) (0 : Fin 1) (y 1) := by
  show rSlot1.emb (Shape.reshapeEquiv Facts₀.squeezes_S1x1x256_S1x256.numel_eq y) = _
  rw [Shape.reshapeEquiv_cons_one (n := 2) (d := ![1, 256])]
  funext a
  match a with
  | ⟨0, _⟩ => exact Fin.ext (by show 1 + 1 * 0 = 1; rfl)
  | ⟨1, _⟩ => exact Fin.ext (by show 0 + 1 * (y 0).val = 0; have hy : (y 0).val < 1 := (y 0).isLt; omega)
  | ⟨2, _⟩ => exact Fin.ext (by show 0 + 1 * (y 1).val = (y 1).val; omega)

theorem row0_emb (y : S1x256.Idx) : row0M.view.emb y = ix2 (0 : Fin 256) (y 1) := by
  show rRow0.emb y = _
  funext a
  match a with
  | ⟨0, _⟩ => exact Fin.ext (by show 0 + 1 * (y 0).val = 0; have hy : (y 0).val < 1 := (y 0).isLt; omega)
  | ⟨1, _⟩ => exact Fin.ext (by show 0 + 1 * (y 1).val = (y 1).val; omega)

theorem row255_emb (y : S1x256.Idx) : row255M.view.emb y = ix2 (255 : Fin 256) (y 1) := by
  show rRow255.emb y = _
  funext a
  match a with
  | ⟨0, _⟩ => exact Fin.ext (by show 255 + 1 * (y 0).val = 255; have hy : (y 0).val < 1 := (y 0).isLt; omega)
  | ⟨1, _⟩ => exact Fin.ext (by show 0 + 1 * (y 1).val = (y 1).val; omega)

theorem landed0_apply (c c' : Dev nD) (fd : Buf (Elt F) (slot0M.view.loc (c : Thread nD τ)))
    (fs : Buf (Elt F) (row255M.view.loc (c' : Thread nD τ))) :
    ∀ i ∈ slot0M.view.set,
      (slot0M.view.write (Elt F) fd (row255M.view.read (Elt F) fs) Finset.univ) i
        = fs (ix2 (255 : Fin 256) ((i : S2x1x256.Idx) 2)) := by
  intro i hi
  obtain ⟨y, rfl⟩ := View.exists_emb_of_mem_set _ hi
  rw [View.write_emb_of_mem _ _ (Finset.mem_univ y), View.read_apply, row255_emb, slot0_emb]
  rfl

theorem landed1_apply (c c' : Dev nD) (fd : Buf (Elt F) (slot1M.view.loc (c : Thread nD τ)))
    (fs : Buf (Elt F) (row0M.view.loc (c' : Thread nD τ))) :
    ∀ i ∈ slot1M.view.set,
      (slot1M.view.write (Elt F) fd (row0M.view.read (Elt F) fs) Finset.univ) i
        = fs (ix2 (0 : Fin 256) ((i : S2x1x256.Idx) 2)) := by
  intro i hi
  obtain ⟨y, rfl⟩ := View.exists_emb_of_mem_set _ hi
  rw [View.write_emb_of_mem _ _ (Finset.mem_univ y), View.read_apply, row0_emb, slot1_emb]
  rfl

theorem read_slot0 (c : Dev nD) (g : Buf (Elt F) (hM.view.loc (c : Thread nD τ))) :
    hM.view.readAt (Elt F) rSlot0.toLoadRect g
      = fun i => g (ix3 (0 : Fin 2) (0 : Fin 1) (i 2)) := by
  funext x
  show g (rSlot0.toLoadRect.idx x) = _
  congr 1
  funext a
  match a with
  | ⟨0, _⟩ => exact Fin.ext (by show 0 + 1 * (x 0).val = 0; have hx : (x 0).val < 1 := (x 0).isLt; omega)
  | ⟨1, _⟩ => exact Fin.ext (by show 0 + 1 * (x 1).val = 0; have hx : (x 1).val < 1 := (x 1).isLt; omega)
  | ⟨2, _⟩ => exact Fin.ext (by show 0 + 1 * (x 2).val = (x 2).val; omega)

theorem read_slot1 (c : Dev nD) (g : Buf (Elt F) (hM.view.loc (c : Thread nD τ))) :
    hM.view.readAt (Elt F) rSlot1.toLoadRect g
      = fun i => g (ix3 (1 : Fin 2) (0 : Fin 1) (i 2)) := by
  funext x
  show g (rSlot1.toLoadRect.idx x) = _
  congr 1
  funext a
  match a with
  | ⟨0, _⟩ => exact Fin.ext (by show 1 + 1 * (x 0).val = 1; have hx : (x 0).val < 1 := (x 0).isLt; omega)
  | ⟨1, _⟩ => exact Fin.ext (by show 0 + 1 * (x 1).val = 0; have hx : (x 1).val < 1 := (x 1).isLt; omega)
  | ⟨2, _⟩ => exact Fin.ext (by show 0 + 1 * (x 2).val = (x 2).val; omega)

theorem hz2 : (![0, 0] : Fin 2 → Nat) = fun _ => 0 := funext fun a => by
  match a with
  | ⟨0, _⟩ => rfl
  | ⟨1, _⟩ => rfl

theorem read_all_x (f : (cc0_stg0_0 : Ref sig .tc).ty.Contents (Elt F)) :
    xM.view.readAt (Elt F) rAll.toLoadRect f = f :=
  Memref.readAt_unit_zero (Elt F) cc0_stg0_0 hz2 _ f

theorem write_all (f w : (cc0_stg1_0 : Ref sig .tc).ty.Contents (Elt F)) :
    (oM.access rAll : View sig .tc _ _ _).write (Elt F) f w Finset.univ = w :=
  Memref.write_access_unit_zero_univ (Elt F) cc0_stg1_0 hz2 _ f w

theorem x_set : xM.view.set = Finset.univ := View.set_whole _
end Cert.Kernel.Views
end
-- ==== Proof.Bits.Bufs.lean ====
import proofs.«900540_g7700000000000541_dist_halo_stencil_i_m256_n256_v7x_i32_f32_1_alg».proof.Proof.Bits.Data
import proofs.«900540_g7700000000000541_dist_halo_stencil_i_m256_n256_v7x_i32_f32_1_alg».proof.Proof.Bits.Views
noncomputable section
namespace Cert.Kernel.Proto
open Cert.Kernel Cert.Kernel.Gen Cert.Kernel.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

theorem halo_split (c : Dev nD) (f : Buf (Elt F) ((c : Thread nD τ).loc cc0_scratch0)) :
    haloPts c f ⊣⊢ iprop(slot0Pts c f ∗ slot1Pts c f) := by
  unfold haloPts slot0Pts slot1Pts
  rw [← Views.slots_union]
  exact pointsTo_union Views.slots_disjoint

theorem halo_join (c : Dev nD) (f g : Buf (Elt F) ((c : Thread nD τ).loc cc0_scratch0)) :
    iprop(slot0Pts c f ∗ slot1Pts c g) ⊢ iprop(∃ h, haloPts c h) := by
  unfold haloPts slot0Pts slot1Pts
  iintro H
  iexists _
  rw [← Views.slots_union]
  iapply (pointsTo_join Views.slots_disjoint) $$ H

def xFull (c : Dev nD) : sProp 𝕄 := ((c : Thread nD τ).loc cc0_stg0_0) ↦{fullShare} xstg m ρ c

def xLoad (c : Dev nD) : sProp 𝕄 :=
  xM.view.loc (c : Thread nD τ)
    ↦[xM.view.set]{fullShare.left} xstg m ρ c

def xLeft (c : Dev nD) : sProp 𝕄 := ((c : Thread nD τ).loc cc0_stg0_0) ↦{fullShare.left} xstg m ρ c

def midSet : Finset (cc0_stg0_0 : Ref sig .tc).ty.Idx :=
  (Finset.univ \ row255M.view.set) \ row0M.view.set

def xRest (c : Dev nD) : sProp 𝕄 := ((c : Thread nD τ).loc cc0_stg0_0) ↦[midSet]{fullShare.right} xstg m ρ c

theorem xLoad_eq (c : Dev nD) : xLoad m ρ c = xLeft m ρ c := by unfold xLoad xLeft; rw [Views.x_set]

theorem row0_subset : row0M.view.set ⊆ Finset.univ \ row255M.view.set :=
  fun i hi => Finset.mem_sdiff.mpr ⟨Finset.mem_univ _, fun h => Finset.disjoint_left.mp Views.rows_disjoint hi h⟩

/-- The input block splits into the left half-share the loads use and, of the right half-share, its last row, its first row and the rest. -/
theorem x_split_eq (c : Dev nD) :
    xFull m ρ c = iprop(xLoad m ρ c ∗ row255Pts m ρ c ∗ row0Pts m ρ c ∗ xRest m ρ c) := by
  have hs := pointsTo_share (Ix := Unit) (Name := ℕ) (U := UU) (Lvl := ℕ) (Val := Elt F)
    (ℓ := (c : Thread nD τ).loc cc0_stg0_0) (I := Finset.univ) (f := xstg m ρ c) (PosShare.mem_left_op_right fullShare)
  have h1 := pointsTo_split_subset (Ix := Unit) (Name := ℕ) (U := UU) (Lvl := ℕ) (Val := Elt F)
    (ℓ := (c : Thread nD τ).loc cc0_stg0_0) (q := fullShare.right) (f := xstg m ρ c)
    (Finset.subset_univ row255M.view.set)
  have h2 := pointsTo_split_subset (Ix := Unit) (Name := ℕ) (U := UU) (Lvl := ℕ) (Val := Elt F)
    (ℓ := (c : Thread nD τ).loc cc0_stg0_0) (q := fullShare.right) (f := xstg m ρ c) row0_subset
  have es : xFull m ρ c = iprop(xLeft m ρ c ∗ (((c : Thread nD τ).loc cc0_stg0_0) ↦{fullShare.right} xstg m ρ c)) :=
    BI.equiv_iff.mp ⟨hs.1, hs.2⟩
  have e1 : ((((c : Thread nD τ).loc cc0_stg0_0) ↦{fullShare.right} xstg m ρ c) : sProp 𝕄)
      = iprop(row255Pts m ρ c ∗ (((c : Thread nD τ).loc cc0_stg0_0) ↦[Finset.univ \ row255M.view.set]{fullShare.right} xstg m ρ c)) :=
    BI.equiv_iff.mp ⟨h1.1, h1.2⟩
  have e2 : ((((c : Thread nD τ).loc cc0_stg0_0) ↦[Finset.univ \ row255M.view.set]{fullShare.right} xstg m ρ c) : sProp 𝕄)
      = iprop(row0Pts m ρ c ∗ xRest m ρ c) :=
    BI.equiv_iff.mp ⟨h2.1, h2.2⟩
  rw [es, e1, e2, xLoad_eq]

theorem x_split (c : Dev nD) :
    xFull m ρ c ⊣⊢ iprop(xLoad m ρ c ∗ row255Pts m ρ c ∗ row0Pts m ρ c ∗ xRest m ρ c) :=
  .of_eq (x_split_eq m ρ c)
/-- info: 'Cert.Kernel.Proto.halo_split' depends on axioms: [propext, Classical.choice, Quot.sound] -/
#guard_msgs in #print axioms halo_split
/-- info: 'Cert.Kernel.Proto.halo_join' depends on axioms: [propext, Classical.choice, Quot.sound] -/
#guard_msgs in #print axioms halo_join
/-- info: 'Cert.Kernel.Proto.x_split' depends on axioms: [propext, Classical.choice, Quot.sound] -/
#guard_msgs in #print axioms x_split
end Cert.Kernel.Proto
end
-- ==== Proof.Bits.Sends.lean ====
import proofs.«900540_g7700000000000541_dist_halo_stencil_i_m256_n256_v7x_i32_f32_1_alg».proof.Proof.Bits.Data
import proofs.«900540_g7700000000000541_dist_halo_stencil_i_m256_n256_v7x_i32_f32_1_alg».proof.Proof.Bits.Views
import Idealize.ShloMosaic.Lib.Rounds
import Idealize.ShloMosaic.Rules.PointsTo
noncomputable section
namespace Cert.Kernel.Proto
open Cert.Kernel Cert.Kernel.Gen Cert.Kernel.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

theorem landed_down (c : Dev nD) (fn : Buf (Elt F) (slot0M.view.loc (rgt c : Thread nD τ))) :
    ∀ i ∈ slot0M.view.set,
      (slot0M.view.write (Elt F) fn
          (row255M.view.read (Elt F) (xstg m ρ c)) Finset.univ) i = landed m ρ (rgt c) i := by
  intro i hi
  rw [Views.landed0_apply (rgt c) c fn (xstg m ρ c) i hi]
  unfold landed
  rw [if_pos (Views.mem_slot0.mp hi), lft_rgt]

theorem landed_up (c : Dev nD) (fn : Buf (Elt F) (slot1M.view.loc (lft c : Thread nD τ))) :
    ∀ i ∈ slot1M.view.set,
      (slot1M.view.write (Elt F) fn
          (row0M.view.read (Elt F) (xstg m ρ c)) Finset.univ) i = landed m ρ (lft c) i := by
  intro i hi
  rw [Views.landed1_apply (lft c) c fn (xstg m ρ c) i hi]
  unfold landed
  have h1 : ((i : S2x1x256.Idx) 0).val = 1 := Views.mem_slot1.mp hi
  rw [if_neg (by omega), rgt_lft]

/-- The last row is sent to the device below and becomes the first of that device's two received rows. -/
theorem wp_send_down (K : Dev nD × Fin 5 → ℕ) (c n : Dev nD) (hn : n = rgt c) (hr : hasR c)
    {hsc : (slot0M : Memref sig (Dev.tc n : Thread nD τ).2.kind .vmem S1x256 .f32).view.ref.isScScratch = false}
    {hsrc : row255M.view.WordExact} {hdst : slot0M.view.WordExact}
    {hsem : DmaTarget.Typed .vmem (.dma rcvS0.sem) (.remote (Dev.tc n : Thread nD τ) slot0M (.dma sndS0.sem) hsc)}
    {α : Type} {Q : α → sProp 𝕄} {k : PUnit → Prog (TpuEff nD τ sig (Elt F) Λ₀ .tc) α}
    (fn : Buf (Elt F) (slot0M.view.loc (rgt c : Thread nD τ)))
    (O : CellTallies nD τ sig Unit) (W : Waits sig Unit) :
    iprop(cellInv ER (sched m ρ) (K (c, 1)) (snd0Cell c) ∗ cellInv ER (sched m ρ) (K (rgt c, 3)) (rcv0Cell (rgt c))
        ∗ row255Pts m ρ c ∗ slot0Pts (rgt c) fn
        ∗ owes (c : Thread nD τ) (O + tallyAt (rcv0Cell (rgt c)) () N) W
        ∗ dutyTok ER (snd0Cell c) 0 false ∗ reached ER (snd0Cell c) 0
        ∗ dutyTok ER (rcv0Cell (rgt c)) 0 false ∗ reached ER (rcv0Cell (rgt c)) 0)
      ⊢ iprop(((cred (tallyAt (snd0Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma row255M (.remote (Dev.tc n : Thread nD τ) slot0M (.dma sndS0.sem) hsc) (.dma rcvS0.sem) hsrc hdst hsem) k) Q) := by
  subst hn
  unfold row255Pts slot0Pts
  exact Rounds.wp_send_pointsTo 𝒱₀ ER (sched m ρ) (c : Thread nD τ) none (κ₁ := K (c, 1)) (κ₂ := K (rgt c, 3))
    (r₁ := 0) (r₂ := 0) (d₁ := false) (d₂ := false) (fd := fn)
    (by rw [duties_snd0, if_pos hr]; exact Finset.mem_singleton_self _)
    (by rw [duties_rcv0, if_pos (hasL_rgt hr)]; exact Finset.mem_singleton_self _)
    () () N rfl (amount_snd0 m ρ c false) (amount_rcv0 m ρ (rgt c) false) O rfl (W := W)
    (by rw [payload_snd0]; exact BI.Entails.refl _)
    (by rw [payload_rcv0]; unfold rcv0Pay slot0Pts; exact Entails.of_eq (pointsTo_congr (landed_down m ρ c fn)))

theorem wp_send_up (K : Dev nD × Fin 5 → ℕ) (c n : Dev nD) (hn : n = lft c) (hl : hasL c)
    {hsc : (slot1M : Memref sig (Dev.tc n : Thread nD τ).2.kind .vmem S1x256 .f32).view.ref.isScScratch = false}
    {hsrc : row0M.view.WordExact} {hdst : slot1M.view.WordExact}
    {hsem : DmaTarget.Typed .vmem (.dma rcvS1.sem) (.remote (Dev.tc n : Thread nD τ) slot1M (.dma sndS1.sem) hsc)}
    {α : Type} {Q : α → sProp 𝕄} {k : PUnit → Prog (TpuEff nD τ sig (Elt F) Λ₀ .tc) α}
    (fn : Buf (Elt F) (slot1M.view.loc (lft c : Thread nD τ)))
    (O : CellTallies nD τ sig Unit) (W : Waits sig Unit) :
    iprop(cellInv ER (sched m ρ) (K (c, 2)) (snd1Cell c) ∗ cellInv ER (sched m ρ) (K (lft c, 4)) (rcv1Cell (lft c))
        ∗ row0Pts m ρ c ∗ slot1Pts (lft c) fn
        ∗ owes (c : Thread nD τ) (O + tallyAt (rcv1Cell (lft c)) () N) W
        ∗ dutyTok ER (snd1Cell c) 0 false ∗ reached ER (snd1Cell c) 0
        ∗ dutyTok ER (rcv1Cell (lft c)) 0 false ∗ reached ER (rcv1Cell (lft c)) 0)
      ⊢ iprop(((cred (tallyAt (snd1Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma row0M (.remote (Dev.tc n : Thread nD τ) slot1M (.dma sndS1.sem) hsc) (.dma rcvS1.sem) hsrc hdst hsem) k) Q) := by
  subst hn
  unfold row0Pts slot1Pts
  exact Rounds.wp_send_pointsTo 𝒱₀ ER (sched m ρ) (c : Thread nD τ) none (κ₁ := K (c, 2)) (κ₂ := K (lft c, 4))
    (r₁ := 0) (r₂ := 0) (d₁ := false) (d₂ := false) (fd := fn) (sem := SemLoc.dma rcvS1.sem)
    (by rw [duties_snd1, if_pos hl]; exact Finset.mem_singleton_self _)
    (by rw [duties_rcv1, if_pos (hasR_lft hl)]; exact Finset.mem_singleton_self _)
    () () N credit_slot1 (amount_snd1 m ρ c false) (amount_rcv1 m ρ (lft c) false) O rfl (W := W)
    (by rw [payload_snd1]; exact BI.Entails.refl _)
    (by rw [payload_rcv1]; unfold rcv1Pay slot1Pts; exact Entails.of_eq (pointsTo_congr (landed_up m ρ c fn)))
end Cert.Kernel.Proto
end
-- ==== Proof.Bits.Waits.lean ====
import proofs.«900540_g7700000000000541_dist_halo_stencil_i_m256_n256_v7x_i32_f32_1_alg».proof.Proof.Bits.Data
import Idealize.ShloMosaic.Lib.Rounds
noncomputable section
namespace Cert.Kernel.Proto
open Cert.Kernel Cert.Kernel.Gen Cert.Kernel.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

section Tables
variable (c : Dev nD)

theorem wordL_iff : Scalar.cmpi .ne (Scalar.extui (Scalar.cmpi .sgt (Scalar.remsi (Scalar.divsi (Dev.word c) 1#32) 32#32) 0#32)) 0#32 = 1#1 ↔ hasL c := by revert c; decide +kernel

theorem wordR_iff : Scalar.cmpi .ne (Scalar.extui (Scalar.cmpi .slt (Scalar.remsi (Scalar.divsi (Dev.word c) 1#32) 32#32) 31#32)) 0#32 = 1#1 ↔ hasR c := by revert c; decide +kernel

theorem wordNL_iff : Scalar.cmpi .ne (Scalar.extui (Scalar.xori (Scalar.cmpi .sgt (Scalar.remsi (Scalar.divsi (Dev.word c) 1#32) 32#32) 0#32) 1#1)) 0#32 = 1#1 ↔ ¬ hasL c := by revert c; decide +kernel

theorem wordNR_iff : Scalar.cmpi .ne (Scalar.extui (Scalar.xori (Scalar.cmpi .slt (Scalar.remsi (Scalar.divsi (Dev.word c) 1#32) 32#32) 31#32) 1#1)) 0#32 = 1#1 ↔ ¬ hasR c := by revert c; decide +kernel

theorem rcv0_duties (h : 0 < c.val) : (sched m ρ).duties (rcv0Cell c) 0 = {false} := by rw [duties_rcv0, if_pos h]

theorem rcv0_expect (h : 0 < c.val) : (sched m ρ).expect (rcv0Cell c) 0 = N := by rw [expect_rcv0, if_pos h]

theorem rcv0_payload (d : Bool) : (sched m ρ).payload (rcv0Cell c) 0 d
    = (slot0M.view.loc (c : Thread nD τ) ↦[slot0M.view.set]{fullShare} landed m ρ c) := by
  rw [payload_rcv0]; rfl

theorem rcv1_duties (h : c.val < 31) : (sched m ρ).duties (rcv1Cell c) 0 = {false} := by rw [duties_rcv1, if_pos h]

theorem rcv1_expect (h : c.val < 31) : (sched m ρ).expect (rcv1Cell c) 0 = N := by rw [expect_rcv1, if_pos h]

theorem rcv1_payload (d : Bool) : (sched m ρ).payload (rcv1Cell c) 0 d
    = (slot1M.view.loc (c : Thread nD τ) ↦[slot1M.view.set]{fullShare} landed m ρ c) := by
  rw [payload_rcv1]; rfl

theorem snd0_duties (h : c.val < 31) : (sched m ρ).duties (snd0Cell c) 0 = {false} := by rw [duties_snd0, if_pos h]

theorem snd0_expect (h : c.val < 31) : (sched m ρ).expect (snd0Cell c) 0 = N := by rw [expect_snd0, if_pos h]

theorem snd0_payload (d : Bool) : (sched m ρ).payload (snd0Cell c) 0 d
    = (row255M.view.loc (c : Thread nD τ) ↦[row255M.view.set]{fullShare.right} xstg m ρ c) := by
  rw [payload_snd0]; rfl

theorem snd1_duties (h : 0 < c.val) : (sched m ρ).duties (snd1Cell c) 0 = {false} := by rw [duties_snd1, if_pos h]

theorem snd1_expect (h : 0 < c.val) : (sched m ρ).expect (snd1Cell c) 0 = N := by rw [expect_snd1, if_pos h]

theorem snd1_payload (d : Bool) : (sched m ρ).payload (snd1Cell c) 0 d
    = (row0M.view.loc (c : Thread nD τ) ↦[row0M.view.set]{fullShare.right} xstg m ρ c) := by
  rw [payload_snd1]; rfl

theorem bar_payload_true : (sched m ρ).payload (barCell c) 0 true
    = iprop((∃ f, (slot0M.view.loc (rgt c : Thread nD τ) ↦[slot0M.view.set]{fullShare} f)) ∗ reached ER (rcv0Cell (rgt c)) 0) := by
  rw [payload_bar_true]; rfl

theorem bar_payload_false : (sched m ρ).payload (barCell c) 0 false
    = iprop((∃ f, (slot1M.view.loc (lft c : Thread nD τ) ↦[slot1M.view.set]{fullShare} f)) ∗ reached ER (rcv1Cell (lft c)) 0) := by
  rw [payload_bar_false]; rfl
end Tables

/-- A cell with no duty left in any round closes at zero. -/
theorem close_cell (κ : ℕ) (g : GSem nD τ sig) (R : ℕ) (hR : R = 1 ∨ (R = 0 ∧ (sched m ρ).duties g 0 = ∅)) :
    iprop(cellInv ER (sched m ρ) κ g ∗ atPos ER g R ∅ 0) ⊢ iprop(|={Set.univ}=> semVal g 0) :=
  Rounds.cell_close ER (sched m ρ) (Set.mem_univ κ) (fun h => h) (R := R) fun r hr => by
    rcases Nat.eq_zero_or_pos r with rfl | h
    · rcases hR with rfl | ⟨-, hn⟩
      · omega
      · exact hn
    · exact duties_later m ρ _ r h
end Cert.Kernel.Proto
end
-- ==== Proof.Bits.OutEq.lean ====
import proofs.«900540_g7700000000000541_dist_halo_stencil_i_m256_n256_v7x_i32_f32_1_alg».proof.Proof.Bits.Data
import proofs.«900540_g7700000000000541_dist_halo_stencil_i_m256_n256_v7x_i32_f32_1_alg».proof.Proof.Bits.Views
noncomputable section
namespace Cert.Kernel.Proto
open Cert.Kernel Cert.Kernel.Gen Cert.Kernel.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

theorem load_slot0 (c : Dev nD) (g0 : Buf (Elt F) (hM.view.loc (c : Thread nD τ)))
    (h0 : ∀ i ∈ slot0M.view.set, g0 i = landed m ρ c i) :
    hM.view.readAt (Elt F) rSlot0.toLoadRect g0 = KVal.haloOf (xstg m ρ (lft c)) 255 := by
  rw [Views.read_slot0]; funext x
  exact (h0 _ (Views.mem_slot0.mpr rfl)).trans (if_pos rfl)

theorem load_slot1 (c : Dev nD) (g1 : Buf (Elt F) (hM.view.loc (c : Thread nD τ)))
    (h1 : ∀ i ∈ slot1M.view.set, g1 i = landed m ρ c i) :
    hM.view.readAt (Elt F) rSlot1.toLoadRect g1 = KVal.haloOf (xstg m ρ (rgt c)) 0 := by
  rw [Views.read_slot1]; funext x
  exact (h1 _ (Views.mem_slot1.mpr rfl)).trans (if_neg Nat.one_ne_zero)

theorem top_has (c : Dev nD) (hl : hasL c) (g0 : Buf (Elt F) (hM.view.loc (c : Thread nD τ)))
    (h0 : ∀ i ∈ slot0M.view.set, g0 i = landed m ρ c i) :
    k0_pay4 (k0_pay1 (xM.view.readAt (Elt F) rAll.toLoadRect (xstg m ρ c))) (hM.view.readAt (Elt F) rSlot0.toLoadRect g0)
      = KVal.topV (decide (hasL c)) (xstg m ρ c) (KVal.haloOf (xstg m ρ (lft c)) 255) := by
  rw [Views.read_all_x, load_slot0 m ρ c g0 h0, decide_eq_true hl]; rfl

theorem top_no (c : Dev nD) (hl : ¬ hasL c) (v : Vec F S1x1x256 .f32) :
    k0_pay5 (k0_pay1 (xM.view.readAt (Elt F) rAll.toLoadRect (xstg m ρ c))) = KVal.topV (decide (hasL c)) (xstg m ρ c) v := by
  rw [Views.read_all_x, decide_eq_false hl]; rfl

theorem bot_has (c : Dev nD) (hr : hasR c) (g1 : Buf (Elt F) (hM.view.loc (c : Thread nD τ)))
    (h1 : ∀ i ∈ slot1M.view.set, g1 i = landed m ρ c i) :
    k0_pay6 (k0_pay1 (xM.view.readAt (Elt F) rAll.toLoadRect (xstg m ρ c))) (hM.view.readAt (Elt F) rSlot1.toLoadRect g1)
      = KVal.botV (decide (hasR c)) (xstg m ρ c) (KVal.haloOf (xstg m ρ (rgt c)) 0) := by
  rw [Views.read_all_x, load_slot1 m ρ c g1 h1, decide_eq_true hr]; rfl

theorem bot_no (c : Dev nD) (hr : ¬ hasR c) (v : Vec F S1x1x256 .f32) :
    k0_pay7 (k0_pay1 (xM.view.readAt (Elt F) rAll.toLoadRect (xstg m ρ c))) = KVal.botV (decide (hasR c)) (xstg m ρ c) v := by
  rw [Views.read_all_x, decide_eq_false hr]; rfl

/-- The stores of the product and of the two edge rows leave the block smoothing, whichever row values the device's place on the line gave. -/
theorem out_eq (c : Dev nD) (f0 : (cc0_stg1_0 : Ref sig .tc).ty.Contents (Elt F)) (top bot : FVec F S1x256 .f32)
    (ht : top = KVal.topV (decide (hasL c)) (xstg m ρ c) (KVal.haloOf (xstg m ρ (lft c)) 255))
    (hb : bot = KVal.botV (decide (hasR c)) (xstg m ρ c) (KVal.haloOf (xstg m ρ (rgt c)) 0)) :
    (oM.access rRow255 : View sig .tc _ _ _).write (Elt F)
        ((oM.access rRow0 : View sig .tc _ _ _).write (Elt F)
          ((oM.access rAll : View sig .tc _ _ _).write (Elt F) f0
            (k0_pay3 (k0_pay1 (xM.view.readAt (Elt F) rAll.toLoadRect (xstg m ρ c)))
              (iota .tc S256x256 32 [0] Facts₀.iota_S256x256_d0_w32) (iota .tc S256x256 32 [1] Facts₀.iota_S256x256_d1_w32) k0_pay2
              (Scalar.ofBits .f32 0x3F000000#32) (Scalar.ofBits .f32 0x00000000#32)) Finset.univ)
          top Finset.univ) bot Finset.univ
      = outAt m ρ c := by
  rw [Views.write_all, Views.read_all_x, ht, hb]; rfl
end Cert.Kernel.Proto
end
-- ==== Proof.Bits.BodyMid.lean ====
import proofs.«900540_g7700000000000541_dist_halo_stencil_i_m256_n256_v7x_i32_f32_1_alg».proof.Proof.Bits.Data
import proofs.«900540_g7700000000000541_dist_halo_stencil_i_m256_n256_v7x_i32_f32_1_alg».proof.Proof.Bits.Views
import proofs.«900540_g7700000000000541_dist_halo_stencil_i_m256_n256_v7x_i32_f32_1_alg».proof.Proof.Bits.Bufs
import proofs.«900540_g7700000000000541_dist_halo_stencil_i_m256_n256_v7x_i32_f32_1_alg».proof.Proof.Bits.Sends
import proofs.«900540_g7700000000000541_dist_halo_stencil_i_m256_n256_v7x_i32_f32_1_alg».proof.Proof.Bits.Waits
import proofs.«900540_g7700000000000541_dist_halo_stencil_i_m256_n256_v7x_i32_f32_1_alg».proof.Proof.Bits.OutEq
import Idealize.ShloMosaic.Lib.Exec
noncomputable section
namespace Cert.Kernel.Proto
open Cert.Kernel Cert.Kernel.Gen Cert.Kernel.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]
local notation "𝕄" => MT nD τ sig Unit (Elt F) ℕ UU ℕ
variable (m : (ℓ : Loc nD τ sig) → Buf (Elt F) ℓ) (ρ : Dev nD → PrngReg)

private theorem rest_bar_mid (c : Dev nD) (hl : hasL c) (hr : hasR c) :
    bigSep ((sched m ρ).duties (barCell c) 0) (fun d => (sched m ρ).payload (barCell c) 0 d)
      = iprop(barPayL (F := F) c ∗ barPayR (F := F) c) := by
  rw [duties_bar, if_pos hl, if_pos hr, bigSep_union (by decide), bigSep_singleton, bigSep_singleton, payload_bar_false, payload_bar_true]
  rfl

private theorem bar_merge (c : Dev nD) (hl : hasL c) (hr : hasR c) (S : Finset Bool) (hS : S ⊆ (sched m ρ).duties (barCell c) 0) :
    iprop(bigSep S (fun d => (sched m ρ).payload (barCell c) 0 d)
        ∗ bigSep ((sched m ρ).duties (barCell c) 0 \ S) (fun d => (sched m ρ).payload (barCell c) 0 d))
      ⊢ iprop(barPayL (F := F) c ∗ barPayR (F := F) c) :=
  Entails.of_eq ((bigSep_sdiff_split hS).symm.trans (rest_bar_mid m ρ c hl hr))

private def midOwed (c : Dev nD) : CellTallies nD τ sig Unit := 0 + tallyAt (rcv1Cell (lft c)) () N + tallyAt (rcv0Cell (rgt c)) () N

private theorem midOwed_pos {c : Dev nD} (g : GSem nD τ sig) (u : Unit) (h : 0 < midOwed c g u) : ∃ d : Dev nD, g = rcv0Cell d ∨ g = rcv1Cell d := by
  rcases Pipeline.add_pos_cases h with h | h
  · rcases Pipeline.add_pos_cases h with h | h
    · exact (zero_pos_false h).elim
    · exact ⟨lft c, Or.inr (Pipeline.tallyAt_pos h).1⟩
  · exact ⟨rgt c, Or.inl (Pipeline.tallyAt_pos h).1⟩

private theorem midOwed_eq (c : Dev nD) :
    tallyAt (rcv0Cell (rgt c)) () N + tallyAt (barCell (rgt c)) () 1 + tallyAt (rcv1Cell (lft c)) () N
      = midOwed c + tallyAt (barCell (rgt c)) () 1 := by
  unfold midOwed; rw [zero_add]; exact (add_rotate _ _ _).symm

private theorem mid_expect_bar (c : Dev nD) (hl : 0 < c.val) (hr : c.val < 31) : (sched m ρ).expect (barCell c) 0 = 2 := by
  rw [expect_bar, if_pos hl, if_pos hr]
attribute [local sl_rounds] mid_expect_bar amount_bar
  rcv0_duties rcv0_expect rcv0_payload amount_rcv0 rcv1_duties rcv1_expect rcv1_payload amount_rcv1
  snd0_duties snd0_expect snd0_payload amount_snd0 snd1_duties snd1_expect snd1_payload amount_snd1

set_option maxHeartbeats 1600000 in
theorem sound_body_mid (K : Dev nD × Fin 5 → ℕ) (c : Dev nD) (hl : hasL c) (hr : hasR c) : SoundBody m ρ K c := by
  intro Kt
  have hlv : 0 < c.val := hl
  have hrv : c.val < 31 := hr
  have h1 := (cond1_iff c).mpr hl
  have h2 := (cond2_iff c).mpr hr
  have h5 := (cond5_iff c).mpr hr
  have h6 := (cond6_iff c).mpr hl
  unfold theBody
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId,
    dif_pos h1, dif_pos h2, dif_pos h5, dif_pos h6, dif_pos ((wordL_iff c).mpr hl), dif_pos ((wordR_iff c).mpr hr),
    dif_neg ((wordNL_iff c).not.mpr (not_not.mpr hl)), dif_neg ((wordNR_iff c).not.mpr (not_not.mpr hr)), dev1_eq c h1, dev2_eq c h2,
    show (1#32 : BitVec 32).toNat = 1 from rfl]
  unfold bodyPre ghost invs
  rw [show barUnits c = 1 + 1 from by unfold barUnits; rw [if_pos hl, if_pos hr],
    show rcv0Units c = N from if_pos hl, show rcv1Units c = N from if_pos hr, ← tallyAt_add]
  iintro ⟨⟨⟨⟨⟨#HIbar, #HIs0, #HIs1, #HIr0, #HIr1, #HIbarL, #HIbarR, #HIr0R, #HIr1L⟩, HatB, HatS0, HatS1, HatR0, HatR1,
    #HrBL, #HrBR, #HrR0R, #HrR1L, #HrS0, #HrS1, #HrR0, #HrR1, HtBL, HtBR, HtR0R, HtR1L, HtS0, HtS1⟩,
    HcB, HcR0, HcR1, #Hlev, ⟨%f0, Hhalo⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀; rw [if_pos hr, if_pos hl]; unfold owedR owedL
  ihave Hh := (halo_split c f0).1 $$ Hhalo
  icases Hh with ⟨Hs0, Hs1⟩
  iapply (Rounds.wp_signal 𝒱₀ ER (sched m ρ) (c : Thread nD τ) none (dst := (lft c : Thread nD τ)) (sem := barS) (κ := K (lft c, 0))
      (r := 0) (d := true) (k' := 1)
      (by rw [duties_bar, if_pos (hasR_lft hl)]; exact Finset.mem_union_right _ (Finset.mem_singleton_self _))
      (amount_bar m ρ (lft c) true) ()
      (tallyAt (rcv0Cell (rgt c)) () N + tallyAt (barCell (rgt c)) () 1 + tallyAt (rcv1Cell (lft c)) () N)
      (add_assoc _ _ _).symm) $$ [HO HtBL Hs0]
  · rw [payload_bar_true]; unfold barPayR; rw [rgt_lft]
    iframe # HtBL
    isplitl [HO]; · iexact HO
    iexists f0; iexact Hs0
  iintro HO
  iapply (Rounds.wp_signal 𝒱₀ ER (sched m ρ) (c : Thread nD τ) none (dst := (rgt c : Thread nD τ)) (sem := barS) (κ := K (rgt c, 0))
      (r := 0) (d := false) (k' := 1)
      (by rw [duties_bar, if_pos (hasL_rgt hr)]; exact Finset.mem_union_left _ (Finset.mem_singleton_self _))
      (amount_bar m ρ (rgt c) false) () (midOwed c) (midOwed_eq c)) $$ [HO HtBR Hs1]
  · rw [payload_bar_false]; unfold barPayL; rw [lft_rgt]
    iframe # HtBR
    isplitl [HO]; · iexact HO
    iexists f0; iexact Hs1
  iintro HO
  ihave HcB' := (cred_add _ _).1 $$ HcB
  icases HcB' with ⟨HcB1, HcB2⟩
  iapply (Rounds.wp_wait 𝒱₀ ER (sched m ρ) (c : Thread nD τ) none (κ := K (c, 0)) (sm := .reg barS) (k' := 1)
      (wpE_semWait_eq 𝒱₀ (c : Thread nD τ) none Set.univ) (Set.mem_univ _) (cr := Finsupp.single () 1) (O := midOwed c) (W := W)
      ({(SemLoc.reg barS, ())} : Waits sig Unit) (R := 0) (m := 0) (T := ∅) (Util.total_single _ _) (image_single_subset _ _ _)) $$ [HcB1 HO HatB]
  · iframe # HO HatB
    isplitl [HcB1]; · iexact HcB1
    iapply (mayWait_bar c (midOwed c) midOwed_pos); iexact Hlev
  iintro %S ⟨%hS, HO, HatB, Hpay1⟩
  rw [Finset.sdiff_empty]
  have hMW : (levAts L lv : sProp 𝕄) ⊢ MayWait (c : Thread nD τ) (.reg barS) () (midOwed c) := mayWait_bar c _ midOwed_pos
  sl_exec
  ihave Hp := (bar_merge m ρ c hl hr S hS.2.1) $$ [Hpay1 HatB_pay1]
  · iframe
  unfold barPayL barPayR
  icases Hp with ⟨⟨⟨%fL, HsL⟩, -⟩, ⟨%fR, HsR⟩, -⟩
  unfold midOwed
  ihave Hx' := (x_split m ρ c).1 $$ [Hx]
  · unfold xFull; iexact Hx
  icases Hx' with ⟨HxL, Hrow255, Hrow0, Hrest⟩
  iapply (wp_send_down m ρ K c _ (dev3_eq c h5) hr fR (0 + tallyAt (rcv1Cell (lft c)) () N) _) $$ [Hrow255 HsR HO HtS0 HtR0R]
  · iframe # ∗
  iintro ⟨HcS0, HO⟩
  iapply (wp_send_up m ρ K c _ (dev4_eq c h6) hl fL 0 _) $$ [Hrow0 HsL HO HtS1 HtR1L]
  · iframe # ∗
  iintro ⟨HcS1, HO⟩
  unfold xLoad
  ihave Hout := (Entails.of_eq (show (((c : Thread nD τ).loc cc0_stg1_0 ↦{fullShare} g1) : sProp 𝕄) = (oM.view.loc (c : Thread nD τ) ↦[Finset.univ]{fullShare} g1) from rfl)) $$ Hout
  sl_exec
  imod (close_cell m ρ (K (c, 1)) (snd0Cell c) 1 (.inl rfl)) $$ [HatS0] with HzS0
  · iframe # ∗
  imod (close_cell m ρ (K (c, 2)) (snd1Cell c) 1 (.inl rfl)) $$ [HatS1] with HzS1
  · iframe # ∗
  imod (close_cell m ρ (K (c, 3)) (rcv0Cell c) 1 (.inl rfl)) $$ [HatR0] with HzR0
  · iframe # ∗
  imod (close_cell m ρ (K (c, 4)) (rcv1Cell c) 1 (.inl rfl)) $$ [HatR1] with HzR1
  · iframe # ∗
  ihave Hh := (halo_join c (landed m ρ c) (landed m ρ c)) $$ [HatR0_pay1 HatR1_pay1]
  · unfold slot0Pts slot1Pts; iframe
  ihave Hx := (x_split m ρ c).2 $$ [HxL HatS0_pay1 HatS1_pay1 Hrest]
  · unfold xLoad row255Pts row0Pts; iframe
  rw [wp_ret]; imodintro
  iapply Hk
  unfold bodyPost Φ₁ Dat.owesAt Pipeline.owesWithin
  rw [show (dats m ρ 0 c).owed t₀.succ = 0 from rfl]
  iframe Hh HzS0 HzS1 HzR0 HzR1
  isplitl [HO]
  · iexists _
    isplitr
    swap
    · iexact HO
    · ipureintro; exact fun _ _ => Or.inl trivial
  isplitl [Hx]
  · iexists _; isplitr; · (ipureintro; rfl)
    unfold xFull; iexact Hx
  iexists _
  isplitr
  swap
  · iexact Hout
  · ipureintro
    exact out_eq m ρ c g1 _ _ (top_has m ρ c hl _ fun _ _ => rfl) (bot_has m ρ c hr _ fun _ _ => rfl)
/-- info: 'Cert.Kernel.Proto.sound_body_mid' depends on axioms: [propext, Classical.choice, Quot.sound] -/
#guard_msgs in #print axioms sound_body_mid
end Cert.Kernel.Proto
end
-- ==== Proof.Bits.BodyFirst.lean ====
import proofs.«900540_g7700000000000541_dist_halo_stencil_i_m256_n256_v7x_i32_f32_1_alg».proof.Proof.Bits.Data
import proofs.«900540_g7700000000000541_dist_halo_stencil_i_m256_n256_v7x_i32_f32_1_alg».proof.Proof.Bits.Views
import proofs.«900540_g7700000000000541_dist_halo_stencil_i_m256_n256_v7x_i32_f32_1_alg».proof.Proof.Bits.Bufs
import proofs.«900540_g7700000000000541_dist_halo_stencil_i_m256_n256_v7x_i32_f32_1_alg».proof.Proof.Bits.Sends
import proofs.«900540_g7700000000000541_dist_halo_stencil_i_m256_n256_v7x_i32_f32_1_alg».proof.Proof.Bits.Waits
import proofs.«900540_g7700000000000541_dist_halo_stencil_i_m256_n256_v7x_i32_f32_1_alg».proof.Proof.Bits.OutEq
import Idealize.ShloMosaic.Lib.Exec
noncomputable section
namespace Cert.Kernel.Proto
open Cert.Kernel Cert.Kernel.Gen Cert.Kernel.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]
local notation "𝕄" => MT nD τ sig Unit (Elt F) ℕ UU ℕ
variable (m : (ℓ : Loc nD τ sig) → Buf (Elt F) ℓ) (ρ : Dev nD → PrngReg)

section First
variable (c : Dev nD)

theorem first_O₀ (hL : ¬ hasL c) (hR : hasR c) :
    O₀ c = tallyAt (rcv0Cell (rgt c)) () N + tallyAt (barCell (rgt c)) () 1 := by
  unfold O₀ owedR; rw [if_pos hR, if_neg hL, add_zero]

theorem first_duties_bar (h : c.val = 0) : (sched m ρ).duties (barCell c) 0 = {true} := by
  rw [duties_bar, if_neg (by unfold hasL; omega), if_pos (by unfold hasR; omega), Finset.empty_union]

theorem first_expect_bar (h : c.val = 0) : (sched m ρ).expect (barCell c) 0 = 1 := by
  rw [expect_bar, if_neg (by unfold hasL; omega), if_pos (by unfold hasR; omega)]
end First
attribute [local sl_rounds] first_duties_bar first_expect_bar bar_payload_true amount_bar
  rcv1_duties rcv1_expect rcv1_payload amount_rcv1 snd0_duties snd0_expect snd0_payload amount_snd0

set_option maxHeartbeats 800000 in
theorem sound_body_first (K : Dev nD × Fin 5 → ℕ) (c : Dev nD) (h0 : c.val = 0) : SoundBody m ρ K c := by
  intro Kt
  have hL : ¬ hasL c := by unfold hasL; omega
  have hR : hasR c := by unfold hasR; omega
  have e2 : k0_cond2 c = 1#1 := (cond2_iff c).mpr hR
  have e5 : k0_cond5 c = 1#1 := (cond5_iff c).mpr hR
  unfold theBody
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId,
    dif_neg ((cond1_iff c).not.mpr hL), dif_pos e2, dif_pos e5, dif_neg ((cond6_iff c).not.mpr hL),
    dif_neg ((wordL_iff c).not.mpr hL), dif_pos ((wordR_iff c).mpr hR), dif_pos ((wordNL_iff c).mpr hL),
    dif_neg ((wordNR_iff c).not.mpr (not_not.mpr hR))]
  unfold bodyPre ghost invs
  rw [show barUnits c = 1 from by unfold barUnits; rw [if_neg hL, if_pos hR],
    show rcv0Units c = 0 from if_neg hL, show rcv1Units c = N from if_pos hR]
  iintro ⟨⟨⟨⟨⟨#HIbar, #HIs0, #HIs1, #HIr0, #HIr1, #HIbarL, #HIbarR, #HIr0R, #HIr1L⟩, HatB, HatS0, HatS1, HatR0, HatR1,
      #HrBL, #HrBR, #HrR0R, #HrR1L, #HrS0, #HrS1, #HrR0, #HrR1, HtBL, HtBR, HtR0R, HtR1L, HtS0, HtS1⟩,
      HcB, HcR0, HcR1, #Hlev, ⟨%f0, Hhalo⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl, first_O₀ c hL hR]
  simp only [dev2_eq c e2]
  ihave Hh := (halo_split c f0).1 $$ Hhalo
  icases Hh with ⟨Hs0, Hs1⟩
  iapply (Rounds.wp_signal 𝒱₀ ER (sched m ρ) (c : Thread nD τ) none (dst := (rgt c : Thread nD τ)) (sem := barS) (κ := K (rgt c, 0))
      (r := 0) (d := false) (by rw [duties_bar, if_pos (hasL_rgt hR)]; exact Finset.mem_union_left _ (Finset.mem_singleton_self _))
      ((amount_bar m ρ (rgt c) false).trans (by decide)) () (0 + tallyAt (rcv0Cell (rgt c)) () N) (by rw [zero_add]))
    $$ [HO HtBR Hs1]
  · rw [payload_bar_false]; unfold barPayL; rw [lft_rgt]
    iframe # HtBR
    isplitl [HO]; · iexact HO
    iexists f0; iexact Hs1
  iintro HO
  unfold slot0Pts
  have hOw : ∀ g u, 0 < (0 + tallyAt (rcv0Cell (rgt c)) () N : CellTallies nD τ sig Unit) g u → ∃ d : Dev nD, g = rcv0Cell d ∨ g = rcv1Cell d :=
    fun g u h => ⟨rgt c, Or.inl (Pipeline.tallyAt_pos (by rwa [zero_add] at h)).1⟩
  have hMW : (levAts L lv : sProp 𝕄) ⊢ MayWait (c : Thread nD τ) (.reg barS) () (0 + tallyAt (rcv0Cell (rgt c)) () N) := mayWait_bar c _ hOw
  sl_exec
  ihave Hx' := (x_split m ρ c).1 $$ [Hx]
  · unfold xFull; iexact Hx
  icases Hx' with ⟨HxL, Hrow255, Hrow0, Hrest⟩
  iapply (wp_send_down m ρ K c _ (dev3_eq c e5) hR HatB_pay1_v 0 (insert (SemLoc.reg barS, ()) W)) $$ [Hrow255 HatB_pay1 HO HtS0 HtR0R]
  · unfold slot0Pts; iframe # ∗
  iintro ⟨HcS0, HO⟩
  unfold xLoad
  ihave Hout := (Entails.of_eq (show (((c : Thread nD τ).loc cc0_stg1_0 ↦{fullShare} g1) : sProp 𝕄) = (oM.view.loc (c : Thread nD τ) ↦[Finset.univ]{fullShare} g1) from rfl)) $$ Hout
  sl_exec
  imod (close_cell m ρ (K (c, 1)) (snd0Cell c) 1 (.inl rfl)) $$ [HatS0] with HzS0
  · iframe # ∗
  imod (close_cell m ρ (K (c, 2)) (snd1Cell c) 0 (.inr ⟨rfl, by rw [duties_snd1, if_neg hL]⟩)) $$ [HatS1] with HzS1
  · iframe # ∗
  imod (close_cell m ρ (K (c, 3)) (rcv0Cell c) 0 (.inr ⟨rfl, by rw [duties_rcv0, if_neg hL]⟩)) $$ [HatR0] with HzR0
  · iframe # ∗
  imod (close_cell m ρ (K (c, 4)) (rcv1Cell c) 1 (.inl rfl)) $$ [HatR1] with HzR1
  · iframe # ∗
  ihave Hh := (halo_join c f0 (landed m ρ c)) $$ [Hs0 HatR1_pay1]
  · unfold slot0Pts slot1Pts; iframe
  ihave Hx := (x_split m ρ c).2 $$ [HxL HatS0_pay1 Hrow0 Hrest]
  · unfold xLoad row255Pts; iframe
  rw [wp_ret]; imodintro
  iapply Hk
  unfold bodyPost Φ₁ Dat.owesAt Pipeline.owesWithin
  rw [show (dats m ρ 0 c).owed t₀.succ = 0 from rfl]
  iframe Hh HzS0 HzS1 HzR0 HzR1
  isplitl [HO]
  · iexists (insert (SemLoc.dma sndS0.sem, ()) (insert (SemLoc.dma rcvS1.sem, ()) (insert (SemLoc.reg barS, ()) W)))
    isplitr; · ipureintro; exact fun _ _ => Or.inl trivial
    iexact HO
  isplitl [Hx]
  · iexists _; isplitr; · (ipureintro; rfl)
    unfold xFull; iexact Hx
  iexists _
  isplitr
  swap
  · iexact Hout
  · ipureintro
    exact out_eq m ρ c g1 _ _ (top_no m ρ c hL _) (bot_has m ρ c hR _ fun _ _ => rfl)
/-- info: 'Cert.Kernel.Proto.sound_body_first' depends on axioms: [propext, Classical.choice, Quot.sound] -/
#guard_msgs in #print axioms sound_body_first
end Cert.Kernel.Proto
end
-- ==== Proof.Bits.BodyLast.lean ====
import proofs.«900540_g7700000000000541_dist_halo_stencil_i_m256_n256_v7x_i32_f32_1_alg».proof.Proof.Bits.Data
import proofs.«900540_g7700000000000541_dist_halo_stencil_i_m256_n256_v7x_i32_f32_1_alg».proof.Proof.Bits.Views
import proofs.«900540_g7700000000000541_dist_halo_stencil_i_m256_n256_v7x_i32_f32_1_alg».proof.Proof.Bits.Bufs
import proofs.«900540_g7700000000000541_dist_halo_stencil_i_m256_n256_v7x_i32_f32_1_alg».proof.Proof.Bits.Sends
import proofs.«900540_g7700000000000541_dist_halo_stencil_i_m256_n256_v7x_i32_f32_1_alg».proof.Proof.Bits.Waits
import proofs.«900540_g7700000000000541_dist_halo_stencil_i_m256_n256_v7x_i32_f32_1_alg».proof.Proof.Bits.OutEq
import Idealize.ShloMosaic.Lib.Exec
noncomputable section
namespace Cert.Kernel.Proto
open Cert.Kernel Cert.Kernel.Gen Cert.Kernel.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]
local notation "𝕄" => MT nD τ sig Unit (Elt F) ℕ UU ℕ
variable (m : (ℓ : Loc nD τ sig) → Buf (Elt F) ℓ) (ρ : Dev nD → PrngReg)

section Last
variable (c : Dev nD)

theorem last_O₀ (hL : hasL c) (hR : ¬ hasR c) :
    O₀ c = (0 + tallyAt (rcv1Cell (lft c)) () N) + tallyAt (barCell (lft c)) () 1 := by
  unfold O₀; rw [if_neg hR, if_pos hL, zero_add, zero_add]; rfl

theorem last_duties_bar (h : c.val = 31) : (sched m ρ).duties (barCell c) 0 = {false} := by
  rw [duties_bar, if_pos (by unfold hasL; omega), if_neg (by unfold hasR; omega), Finset.union_empty]

theorem last_expect_bar (h : c.val = 31) : (sched m ρ).expect (barCell c) 0 = 1 := by
  rw [expect_bar, if_pos (by unfold hasL; omega), if_neg (by unfold hasR; omega)]
end Last
attribute [local sl_rounds] last_duties_bar last_expect_bar bar_payload_false amount_bar
  rcv0_duties rcv0_expect rcv0_payload amount_rcv0 snd1_duties snd1_expect snd1_payload amount_snd1

set_option maxHeartbeats 800000 in
theorem sound_body_last (K : Dev nD × Fin 5 → ℕ) (c : Dev nD) (h31 : c.val = 31) : SoundBody m ρ K c := by
  intro Kt
  have hL : hasL c := by unfold hasL; omega
  have hR : ¬ hasR c := by unfold hasR; omega
  have hc1 : k0_cond1 c = 1#1 := (cond1_iff c).mpr hL
  have hc6 : k0_cond6 c = 1#1 := (cond6_iff c).mpr hL
  unfold theBody
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId,
    dif_pos hc1, dif_neg ((cond2_iff c).not.mpr hR), dif_neg ((cond5_iff c).not.mpr hR), dif_pos hc6,
    dif_pos ((wordL_iff c).mpr hL), dif_neg ((wordR_iff c).not.mpr hR), dif_neg ((wordNL_iff c).not.mpr (not_not.mpr hL)),
    dif_pos ((wordNR_iff c).mpr hR)]
  unfold bodyPre ghost invs
  rw [show barUnits c = 1 from by unfold barUnits; rw [if_pos hL, if_neg hR],
    show rcv0Units c = N from if_pos hL, show rcv1Units c = 0 from if_neg hR]
  iintro ⟨⟨⟨⟨⟨#HIbar, #HIs0, #HIs1, #HIr0, #HIr1, #HIbarL, #HIbarR, #HIr0R, #HIr1L⟩, HatB, HatS0, HatS1, HatR0, HatR1,
      #HrBL, #HrBR, #HrR0R, #HrR1L, #HrS0, #HrS1, #HrR0, #HrR1, HtBL, HtBR, HtR0R, HtR1L, HtS0, HtS1⟩,
      HcB, HcR0, HcR1, #Hlev, ⟨%f0, Hhalo⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl, last_O₀ c hL hR]
  simp only [dev1_eq c hc1]
  ihave Hh := (halo_split c f0).1 $$ Hhalo
  icases Hh with ⟨Hs0, Hs1⟩
  iapply (Rounds.wp_signal 𝒱₀ ER (sched m ρ) (c : Thread nD τ) none (dst := (lft c : Thread nD τ)) (sem := barS) (κ := K (lft c, 0))
      (r := 0) (d := true)
      (by rw [duties_bar, if_pos (hasR_lft hL)]; exact Finset.mem_union_right _ (Finset.mem_singleton_self _))
      ((amount_bar m ρ (lft c) true).trans (by decide)) () (0 + tallyAt (rcv1Cell (lft c)) () N) rfl)
    $$ [HO HtBL Hs0]
  · rw [payload_bar_true]; unfold barPayR; rw [rgt_lft]
    iframe # HtBL
    isplitl [HO]; · iexact HO
    iexists f0; iexact Hs0
  iintro HO
  unfold slot1Pts
  have hOw : ∀ g u, 0 < (0 + tallyAt (rcv1Cell (lft c)) () N : CellTallies nD τ sig Unit) g u → ∃ d : Dev nD, g = rcv0Cell d ∨ g = rcv1Cell d :=
    fun g u h => ⟨lft c, Or.inr (Pipeline.tallyAt_pos (by rwa [zero_add] at h)).1⟩
  have hMW : (levAts L lv : sProp 𝕄) ⊢ MayWait (c : Thread nD τ) (.reg barS) () (0 + tallyAt (rcv1Cell (lft c)) () N) := mayWait_bar c _ hOw
  sl_exec
  ihave Hx' := (x_split m ρ c).1 $$ [Hx]
  · unfold xFull; iexact Hx
  icases Hx' with ⟨HxL, Hrow255, Hrow0, Hrest⟩
  iapply (wp_send_up m ρ K c _ (dev4_eq c hc6) hL HatB_pay1_v 0 (insert (SemLoc.reg barS, ()) W)) $$ [Hrow0 HatB_pay1 HO HtS1 HtR1L]
  · unfold slot1Pts; iframe # ∗
  iintro ⟨HcS1, HO⟩
  unfold xLoad
  ihave Hout := (Entails.of_eq (show (((c : Thread nD τ).loc cc0_stg1_0 ↦{fullShare} g1) : sProp 𝕄) = (oM.view.loc (c : Thread nD τ) ↦[Finset.univ]{fullShare} g1) from rfl)) $$ Hout
  sl_exec
  imod (close_cell m ρ (K (c, 1)) (snd0Cell c) 0 (.inr ⟨rfl, by rw [duties_snd0, if_neg hR]⟩)) $$ [HatS0] with HzS0
  · iframe # ∗
  imod (close_cell m ρ (K (c, 2)) (snd1Cell c) 1 (.inl rfl)) $$ [HatS1] with HzS1
  · iframe # ∗
  imod (close_cell m ρ (K (c, 3)) (rcv0Cell c) 1 (.inl rfl)) $$ [HatR0] with HzR0
  · iframe # ∗
  imod (close_cell m ρ (K (c, 4)) (rcv1Cell c) 0 (.inr ⟨rfl, by rw [duties_rcv1, if_neg hR]⟩)) $$ [HatR1] with HzR1
  · iframe # ∗
  ihave Hh := (halo_join c (landed m ρ c) f0) $$ [HatR0_pay1 Hs1]
  · unfold slot0Pts slot1Pts; iframe
  ihave Hx := (x_split m ρ c).2 $$ [HxL Hrow255 HatS1_pay1 Hrest]
  · unfold xLoad row0Pts; iframe
  rw [wp_ret]; imodintro
  iapply Hk
  unfold bodyPost Φ₁ Dat.owesAt Pipeline.owesWithin
  rw [show (dats m ρ 0 c).owed t₀.succ = 0 from rfl]
  iframe Hh HzS0 HzS1 HzR0 HzR1
  isplitl [HO]
  · iexists (insert (SemLoc.dma sndS1.sem, ()) (insert (SemLoc.dma rcvS0.sem, ()) (insert (SemLoc.reg barS, ()) W)))
    isplitr; · ipureintro; exact fun _ _ => Or.inl trivial
    iexact HO
  isplitl [Hx]
  · iexists _; isplitr; · (ipureintro; rfl)
    unfold xFull; iexact Hx
  iexists _
  isplitr
  swap
  · iexact Hout
  · ipureintro
    exact out_eq m ρ c g1 _ _ (top_has m ρ c hL _ fun _ _ => rfl) (bot_no m ρ c hR _)
/-- info: 'Cert.Kernel.Proto.sound_body_last' depends on axioms: [propext, Classical.choice, Quot.sound] -/
#guard_msgs in #print axioms sound_body_last
end Cert.Kernel.Proto
end
-- ==== Proof.Bits.Body.lean ====
import proofs.«900540_g7700000000000541_dist_halo_stencil_i_m256_n256_v7x_i32_f32_1_alg».proof.Proof.Bits.BodyMid
import proofs.«900540_g7700000000000541_dist_halo_stencil_i_m256_n256_v7x_i32_f32_1_alg».proof.Proof.Bits.BodyFirst
import proofs.«900540_g7700000000000541_dist_halo_stencil_i_m256_n256_v7x_i32_f32_1_alg».proof.Proof.Bits.BodyLast
noncomputable section
namespace Cert.Kernel.Proto
open Cert.Kernel Cert.Kernel.Gen Cert.Kernel.Mems
open Idealize.ShloMosaic Idealize.ShloMosaic.TcCoe Idealize.SL.Sem
variable {F : FTy → Type} [FloatOps F]
variable (m : (ℓ : Loc nD τ sig) → Buf (Elt F) ℓ) (ρ : Dev nD → PrngReg)

theorem sound_body (K : Dev nD × Fin 5 → ℕ) (c : Dev nD) : SoundBody m ρ K c := by
  by_cases h0 : c.val = 0
  · exact sound_body_first m ρ K c h0
  · by_cases h31 : c.val = 31
    · exact sound_body_last m ρ K c h31
    · exact sound_body_mid m ρ K c (Nat.pos_of_ne_zero h0) (by have h32 : c.val < 32 := c.isLt; omega)
end Cert.Kernel.Proto
end
-- ==== Proof.Bits.Launch.lean ====
import proofs.«900540_g7700000000000541_dist_halo_stencil_i_m256_n256_v7x_i32_f32_1_alg».proof.Proof.Bits.Data
import proofs.«900540_g7700000000000541_dist_halo_stencil_i_m256_n256_v7x_i32_f32_1_alg».proof.Proof.Gen.Kernel.Launch
import proofs.«900540_g7700000000000541_dist_halo_stencil_i_m256_n256_v7x_i32_f32_1_alg».proof.Proof.Gen.Kernel.Points
import Idealize.ShloMosaic.Lib.Pipeline.Launch
import Idealize.ShloMosaic.Lib.Pipeline.Kit
import Idealize.ShloMosaic.Lib.Tactic
noncomputable section
namespace Cert.Kernel.Proto
open Cert.Kernel Cert.Kernel.Gen Cert.Kernel.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (hbody : ∀ (K : Dev nD × Fin 5 → ℕ) (c : Dev nD), SoundBody m ρ K c) (c : Dev nD) :
    BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hrest⟩, Hscr⟩, Ho, Hx, Hout⟩
  iapply (hbody K c fun _ => bodyPost m ρ c)
  unfold bodyPre
  icases Hrest with ⟨H1, H2, H3, H4⟩
  iframe
  iintro H; iexact H

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

def lineCells : Finset (GSem nD τ sig) := Finset.univ.map ⟨kcell, kcell_injective⟩

abbrev tokSem : Fin 6 → SemLoc sig × Bool := fun
  | 0 => (.reg barS, false) | 1 => (.reg barS, true) | 2 => (.dma sndS0.sem, false) | 3 => (.dma sndS1.sem, false)
  | 4 => (.dma rcvS0.sem, false) | 5 => (.dma rcvS1.sem, false)

abbrev tokOf (cj : Dev nD × Fin 6) : GSem nD τ sig × ℕ × Bool := (((cj.1 : Thread nD τ), (tokSem cj.2).1), 0, (tokSem cj.2).2)

theorem tokSem_injective : Function.Injective tokSem := by decide

theorem tokOf_injective : Function.Injective (tokOf : Dev nD × Fin 6 → GSem nD τ sig × ℕ × Bool) := by
  rintro ⟨c, j⟩ ⟨c', j'⟩ h
  have h1 : c = c' := congrArg (fun x : GSem nD τ sig × ℕ × Bool => x.1.1.1) h
  have h2 : tokSem j = tokSem j' :=
    Prod.ext (congrArg (fun x : GSem nD τ sig × ℕ × Bool => x.1.2) h) (congrArg (fun x : GSem nD τ sig × ℕ × Bool => x.2.2) h)
  rw [h1, tokSem_injective h2]

def lineToks : Finset (GSem nD τ sig × ℕ × Bool) := Finset.univ.map ⟨tokOf, tokOf_injective⟩

def u₀ : UU :=
  (initOf (Pipeline.cells cfgs cellOf_inj) (Pipeline.launchToks cfgs cellOf_inj), initOf lineCells lineToks)

def toks (c : Dev nD) : sProp 𝕄 :=
  iprop(dutyTok ER (barCell c) 0 false ∗ dutyTok ER (barCell c) 0 true ∗ dutyTok ER (snd0Cell c) 0 false ∗ dutyTok ER (snd1Cell c) 0 false
    ∗ dutyTok ER (rcv0Cell c) 0 false ∗ dutyTok ER (rcv1Cell c) 0 false)

def G (c : Dev nD) : sProp 𝕄 :=
  iprop((bigSep Finset.univ fun k : Fin 5 => roundState ER (sched m ρ) (kcell (c, k)) 0)
    ∗ (bigSep Finset.univ fun k : Fin 5 => iprop(atPos ER (kcell (c, k)) 0 ∅ 0 ∗ reached ER (kcell (c, k)) 0)) ∗ toks c)

def G' (c : Dev nD) : sProp 𝕄 := iprop(∃ K, ghost m ρ K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem fund_line : BI.own (ER (initOf lineCells lineToks)) ⊢ (|==> bigSep Finset.univ (G m ρ) : sProp 𝕄) := by
  have hX (Φ : GSem nD τ sig → sProp 𝕄) : bigSep lineCells Φ = bigSep Finset.univ fun c : Dev nD => bigSep Finset.univ fun k : Fin 5 => Φ (kcell (c, k)) := by
    unfold lineCells; rw [bigSep_map, bigSep_univ_prod]; rfl
  have hT : bigSep lineToks (fun x => (dutyTok ER x.1 x.2.1 x.2.2 : sProp 𝕄)) = bigSep Finset.univ fun c : Dev nD => toks c := by
    unfold lineToks; rw [bigSep_map, bigSep_univ_prod]
    exact bigSep_congr fun c _ => by unfold toks; rw [bigSep_fin6]; rfl
  iintro HX
  imod (Rounds.fund ER (sched m ρ) lineCells lineToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem ownSems0_eq (c : Dev nD) : (Pipeline.ownSems0 osem c : sProp 𝕄)
    = iprop(semVal (snd0Cell c) 0 ∗ semVal (snd1Cell c) 0 ∗ semVal (rcv0Cell c) 0 ∗ semVal (rcv1Cell c) 0) := by
  rw [Pipeline.ownSems0_eq_of_list c osem [0, 1, 2, 3] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  iframe

theorem core_alloc (c : Dev nD) :
    iprop(Pipeline.ownSems0 osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · iframe
  imod (show iprop((bigSep Finset.univ fun k : Fin 5 => semVal (kcell (c, k)) 0) ∗ bigSep Finset.univ fun k : Fin 5 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · iframe
  imodintro
  iframe

def records (K : Dev nD × Fin 5 → ℕ) : sProp 𝕄 :=
  iprop((bigSep Finset.univ fun ck : Dev nD × Fin 5 => cellInv ER (sched m ρ) (K ck) (kcell ck))
    ∗ bigSep Finset.univ fun ck : Dev nD × Fin 5 => reached ER (kcell ck) 0)

instance records_persistent (K : Dev nD × Fin 5 → ℕ) : BI.Persistent (records m ρ K) := by unfold records; infer_instance

theorem inv_at (K : Dev nD × Fin 5 → ℕ) (ck : Dev nD × Fin 5) :
    (bigSep Finset.univ fun ck : Dev nD × Fin 5 => (cellInv ER (sched m ρ) (K ck) (kcell ck) : sProp 𝕄)) ⊢ cellInv ER (sched m ρ) (K ck) (kcell ck) :=
  bigSep_elim (Finset.mem_univ ck)

theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

def payToks (c : Dev nD) : sProp 𝕄 :=
  iprop(dutyTok ER (barCell (lft c)) 0 true ∗ dutyTok ER (barCell (rgt c)) 0 false
    ∗ dutyTok ER (rcv0Cell (rgt c)) 0 false ∗ dutyTok ER (rcv1Cell (lft c)) 0 false
    ∗ dutyTok ER (snd0Cell c) 0 false ∗ dutyTok ER (snd1Cell c) 0 false)

def linear (c : Dev nD) : sProp 𝕄 :=
  iprop((atPos ER (barCell c) 0 ∅ 0 ∗ atPos ER (snd0Cell c) 0 ∅ 0 ∗ atPos ER (snd1Cell c) 0 ∅ 0 ∗ atPos ER (rcv0Cell c) 0 ∅ 0 ∗ atPos ER (rcv1Cell c) 0 ∅ 0)
    ∗ payToks c)

theorem ghost_intro (K : Dev nD × Fin 5 → ℕ) (c : Dev nD) : iprop(records m ρ K ∗ linear c) ⊢ G' m ρ c := by
  unfold records linear payToks G' ghost invs
  iintro ⟨⟨#HI, #HR⟩, ⟨Ha0, Ha1, Ha2, Ha3, Ha4⟩, Ht0, Ht1, Ht2, Ht3, Ht4, Ht5⟩
  iexists K
  iframe
  repeat' isplitr
  · iapply (inv_at m ρ K (c, 0)); iexact HI
  · iapply (inv_at m ρ K (c, 1)); iexact HI
  · iapply (inv_at m ρ K (c, 2)); iexact HI
  · iapply (inv_at m ρ K (c, 3)); iexact HI
  · iapply (inv_at m ρ K (c, 4)); iexact HI
  · iapply (inv_at m ρ K (lft c, 0)); iexact HI
  · iapply (inv_at m ρ K (rgt c, 0)); iexact HI
  · iapply (inv_at m ρ K (rgt c, 3)); iexact HI
  · iapply (inv_at m ρ K (lft c, 4)); iexact HI
  · iapply (reached_at (F := F) (lft c, 0)); iexact HR
  · iapply (reached_at (F := F) (rgt c, 0)); iexact HR
  · iapply (reached_at (F := F) (rgt c, 3)); iexact HR
  · iapply (reached_at (F := F) (lft c, 4)); iexact HR
  · iapply (reached_at (F := F) (c, 1)); iexact HR
  · iapply (reached_at (F := F) (c, 2)); iexact HR
  · iapply (reached_at (F := F) (c, 3)); iexact HR
  · iapply (reached_at (F := F) (c, 4)); iexact HR

/-- The duty tokens dealt per owner, handed to the neighbours that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv line (fun c : Dev nD => (dutyTok ER (barCell c) 0 false : sProp 𝕄)),
    bigSep_univ_equiv line.symm (fun c : Dev nD => (dutyTok ER (barCell c) 0 true : sProp 𝕄)),
    bigSep_univ_equiv line (fun c : Dev nD => (dutyTok ER (rcv0Cell c) 0 false : sProp 𝕄)),
    bigSep_univ_equiv line.symm (fun c : Dev nD => (dutyTok ER (rcv1Cell c) 0 false : sProp 𝕄))]
  iintro ⟨HbF, HbT, Hs0, Hs1, Hr0, Hr1⟩
  iframe Hs0 Hs1
  isplitl [HbT]; · iexact HbT
  isplitl [HbF]; · iexact HbF
  isplitl [Hr0]; · iexact Hr0
  iexact Hr1

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (sched m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; iframe #
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    iframe

theorem glob : (bigSep Finset.univ fun c => iprop(Pipeline.ownSems0 osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem hasR_lft_iff (c : Dev nD) : hasR (lft c) ↔ hasL c := by revert c; decide

theorem hasL_rgt_iff (c : Dev nD) : hasL (rgt c) ↔ hasR c := by revert c; decide

def due (c : Dev nD) : CellTallies nD τ sig Unit :=
  tallyAt (barCell c) () (barUnits c) + (tallyAt (rcv0Cell c) () (rcv0Units c) + tallyAt (rcv1Cell c) () (rcv1Units c))

/-- What the devices owe, summed over the payers, is what each device is owed, summed over the owners: the line's shift reindexes one sum into the other. -/
theorem owed_sum : (∑ d, O₀ d) = ∑ d, due d := by
  unfold O₀
  rw [Finset.sum_add_distrib, ← Equiv.sum_comp line.symm (fun d => if hasR d then owedR d else 0),
    ← Equiv.sum_comp line (fun d => if hasL d then owedL d else 0), ← Finset.sum_add_distrib]
  refine Finset.sum_congr rfl fun e _ => ?_
  show (if hasR (lft e) then owedR (lft e) else 0) + (if hasL (rgt e) then owedL (rgt e) else 0) = due e
  unfold owedR owedL due
  rw [rgt_lft, lft_rgt]
  by_cases hl : hasL e <;> by_cases hr : hasR e <;>
    simp only [barUnits, rcv0Units, rcv1Units, hasR_lft_iff, hasL_rgt_iff, hl, hr, ↓reduceIte, tallyAt_zero, ← tallyAt_add, add_zero, zero_add] <;> ac_rfl

theorem due_own (d : Dev nD) (g : GSem nD τ sig) (h : due d g ≠ 0) : g.1 = (d : Thread nD τ) := by
  by_contra hg
  refine h ?_
  unfold due
  rw [Pi.add_apply, Pi.add_apply, tallyAt_ne_cell fun e => hg (congrArg Prod.fst e), tallyAt_ne_cell fun e => hg (congrArg Prod.fst e),
    tallyAt_ne_cell fun e => hg (congrArg Prod.fst e), add_zero, add_zero]

theorem creds (c : Dev nD) :
    (Pipeline.launchCred O₀ c : sProp 𝕄)
      ⊢ iprop(cred (tallyAt (barCell c) () (barUnits c)) ∗ cred (tallyAt (rcv0Cell c) () (rcv0Units c)) ∗ cred (tallyAt (rcv1Cell c) () (rcv1Units c))) := by
  rw [Pipeline.launchCred_of_sum O₀ due owed_sum due_own c]
  exact (cred_add _ _).1.trans (sep_mono_right (cred_add _ _).1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, H2, H3⟩
  imodintro
  unfold start G'
  iframe

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ haloPts
  iintro ⟨Hs, -, Hr⟩
  iframe

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ haloPts
  iintro ⟨Hr, H1, H2, H3, H4⟩
  iframe

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main (hbody : ∀ (K : Dev nD × Fin 5 → ℕ) (c : Dev nD), SoundBody m ρ K c) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_line m ρ) $$ HX with HG
      imodintro
      iframe)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)
/-- info: 'Cert.Kernel.Proto.run_main' depends on axioms: [propext, Classical.choice, Quot.sound] -/
#guard_msgs in #print axioms run_main
end Cert.Kernel.Proto
end
-- ==== Proof.Bits.Final.lean ====
import proofs.«900540_g7700000000000541_dist_halo_stencil_i_m256_n256_v7x_i32_f32_1_alg».proof.Proof.Bits.Data
import Idealize.ShloMosaic.Lib.Pipeline.Cells
noncomputable section
namespace Cert.Kernel.Proto
open Cert.Kernel Cert.Kernel.Gen Cert.Kernel.Mems
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

theorem arrAt_x (c : Dev nD) :
    (dats m ρ 0 c).arrAt (0 : Fin 2) cfg0.N = (s₀ m ρ).mem (win0_0.arr.view.loc (c : Thread nD τ)) :=
  (dats m ρ 0 c).arrAt_in (0 : Fin 2) rfl _

theorem out_off : (fun a => win0_1.index (t₀ : Fin cfg0.N) a * win0_1.size a) = fun _ => 0 :=
  funext fun a => Nat.zero_mul _

theorem arrAt_out (c : Dev nD) :
    (dats m ρ 0 c).arrAt (1 : Fin 2) cfg0.N = outAt m ρ c := by
  rw [congrArg ((dats m ρ 0 c).arrAt (1 : Fin 2)) cfg0_N]
  refine ((dats m ρ 0 c).arrAt_succ (1 : Fin 2) t₀).trans ?_
  rw [if_pos (flush0_1 t₀)]
  exact Memref.write_access_unit_zero_univ (Elt F) main_v1 out_off _ _ _
end Cert.Kernel.Proto
end
-- ==== Proof.Bits.Run.lean ====
import proofs.«900540_g7700000000000541_dist_halo_stencil_i_m256_n256_v7x_i32_f32_1_alg».proof.Proof.Bits.Body
import proofs.«900540_g7700000000000541_dist_halo_stencil_i_m256_n256_v7x_i32_f32_1_alg».proof.Proof.Bits.Launch
import proofs.«900540_g7700000000000541_dist_halo_stencil_i_m256_n256_v7x_i32_f32_1_alg».proof.Proof.Bits.Final
noncomputable section
namespace Cert.Kernel.Proto
open Cert.Kernel Cert.Kernel.Gen Cert.Kernel.Mems
open Idealize.ShloMosaic Idealize.ShloMosaic.TcCoe Idealize.SL.Sem
variable {F : FTy → Type} [FloatOps F]
variable (m : (ℓ : Loc nD τ sig) → Buf (Elt F) ℓ) (ρ : Dev nD → PrngReg)

theorem run : θ_run (defs (F := F)) (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  (θ_run defs _ _).mono (fun r h c => ⟨((h c (1 : Fin 2)).trans (arrAt_out m ρ c)), ((h c (0 : Fin 2)).trans (arrAt_x m ρ c))⟩)
    (run_main m ρ (sound_body m ρ))
/-- info: 'Cert.Kernel.Proto.run' depends on axioms: [propext, Classical.choice, Quot.sound] -/
#guard_msgs in #print axioms run
end Cert.Kernel.Proto
end
-- ==== Proof.Xstg.lean ====
import proofs.«900540_g7700000000000541_dist_halo_stencil_i_m256_n256_v7x_i32_f32_1_alg».proof.Proof.Data
noncomputable section
namespace Cert.KernelIdeal.Proto
open Cert.KernelIdeal Cert.KernelIdeal.Gen Cert.KernelIdeal.Mems
open Idealize.ShloMosaic Idealize.ShloMosaic.TcCoe Idealize.SL.Sem
variable {F : FTy → Type} [FloatOps F]
variable (m : (ℓ : Loc nD τ sig) → Buf (Elt F) ℓ) (ρ : Dev nD → PrngReg)

theorem xstg_eq (c : Dev nD) : xstg m ρ c = m ((c : Thread nD τ).loc main_arg0) := by
  unfold xstg s₀
  exact Memref.read_access_unit_zero (Elt F) main_arg0 (funext fun a => by fin_cases a <;> rfl) _ _
end Cert.KernelIdeal.Proto
end
-- ==== Proof.Spec.lean ====
import Idealize.ShloMosaic.PureOps.Ideal
import Idealize.ShloMosaic.Lib.ValueIdx
noncomputable section
namespace Cert.Spec
open Idealize.ShloMosaic Idealize.ShloMosaic.ValueIdx

abbrev SW : Shape := ⟨2, ![8192, 256]⟩

abbrev SB : Shape := ⟨2, ![256, 256]⟩

abbrev SR : Shape := ⟨2, ![1, 256]⟩

def wq : EReal := Ideal.ofBits .f32 0x3E800000#32

def wh : EReal := Ideal.ofBits .f32 0x3F000000#32

def comb (a b c : EReal) : EReal := wq * a + wh * b + wq * c

def stencilW (X : SW.Idx → EReal) : SW.Idx → EReal := fun i =>
  if h0 : (i 0).val = 0 then X i
  else if h1 : (i 0).val = 8191 then X i
  else comb (X (ix2 (⟨(i 0).val - 1, by have := idx2_lt0 i; omega⟩ : Fin 8192) (i 1))) (X i)
        (X (ix2 (⟨(i 0).val + 1, by have := idx2_lt0 i; omega⟩ : Fin 8192) (i 1)))

def stencilB (hasL hasR : Bool) (x : SB.Idx → EReal) (L R : SR.Idx → EReal) : SB.Idx → EReal := fun i =>
  if (i 0).val = 0 ∧ hasL = false then x i
  else if (i 0).val = 255 ∧ hasR = false then x i
  else comb
    (if h : (i 0).val = 0 then L (ix2 (0 : Fin 1) (i 1)) else x (ix2 (⟨(i 0).val - 1, by have := idx2_lt0 i; omega⟩ : Fin 256) (i 1)))
    (x i)
    (if h : (i 0).val = 255 then R (ix2 (0 : Fin 1) (i 1)) else x (ix2 (⟨(i 0).val + 1, by have := idx2_lt0 i; omega⟩ : Fin 256) (i 1)))
end Cert.Spec
end
-- ==== Proof.LibRowOps.lean ====
import Idealize.ShloMosaic.Lib.Pipeline.Value
import Idealize.ShloMosaic.Lib.ValueIdx
import Idealize.ShloMosaic.Lib.ValueLayout
import Idealize.ShloMosaic.PureOps.Ideal.Laws
noncomputable section
namespace Cert.LibRowOps
open Idealize.ShloMosaic Idealize.ShloMosaic.ValueIdx
open scoped BigOperators
variable {α : Type}
section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j
end Plain
end Cert.LibRowOps
end
-- ==== Proof.KValue.lean ====
import proofs.«900540_g7700000000000541_dist_halo_stencil_i_m256_n256_v7x_i32_f32_1_alg».proof.Proof.Spec
import proofs.«900540_g7700000000000541_dist_halo_stencil_i_m256_n256_v7x_i32_f32_1_alg».proof.Proof.KVal
import proofs.«900540_g7700000000000541_dist_halo_stencil_i_m256_n256_v7x_i32_f32_1_alg».proof.Proof.LibRowOps
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws
import Mathlib.Data.BitVec
noncomputable section
namespace Cert.KernelIdeal.KValue
open Idealize.ShloMosaic Idealize.ShloMosaic.ValueIdx Cert.Spec Cert.KernelIdeal Cert.KernelIdeal.Gen
open scoped BigOperators

theorem word_eq_iff (r k : ℕ) (hr : r < 256) (hk : k < 256) : BitVec.ofNat 32 r = BitVec.ofNat 32 k ↔ r = k := by
  constructor
  · intro h
    have := congrArg BitVec.toNat h
    simp only [BitVec.toNat_ofNat] at this
    omega
  · intro h; rw [h]

theorem absdiff_eq_one_iff (r k : ℕ) (hr : r < 256) (hk : k < 256) :
    IntOp.absi (IntOp.subi (BitVec.ofNat 32 r) (BitVec.ofNat 32 k)) = 1#32 ↔ (r = k + 1 ∨ k = r + 1) := by
  unfold IntOp.absi IntOp.subi
  by_cases hkr : k ≤ r
  · obtain ⟨d, rfl⟩ := Nat.exists_eq_add_of_le hkr
    have hd : BitVec.ofNat 32 (k + d) - BitVec.ofNat 32 k = BitVec.ofNat 32 d := by
      rw [BitVec.ofNat_add]; exact add_sub_cancel_left _ _
    have hm : (BitVec.ofNat 32 d).msb = false := by
      rw [BitVec.msb_eq_decide, BitVec.toNat_ofNat]; exact decide_eq_false (by omega)
    rw [hd, hm, if_neg (by decide), show (1#32 : BitVec 32) = BitVec.ofNat 32 1 from rfl, word_eq_iff d 1 (by omega) (by omega)]
    omega
  · obtain ⟨d, rfl⟩ := Nat.exists_eq_add_of_le (Nat.le_of_lt (Nat.lt_of_not_le hkr))
    have hd : BitVec.ofNat 32 r - BitVec.ofNat 32 (r + d) = -BitVec.ofNat 32 d := by
      rw [BitVec.ofNat_add]; exact sub_add_cancel_left _ _
    have hm : (-BitVec.ofNat 32 d).msb = true := by
      rw [BitVec.msb_eq_decide, BitVec.toNat_neg, BitVec.toNat_ofNat]; exact decide_eq_true (by omega)
    rw [hd, hm, if_pos rfl, neg_neg, show (1#32 : BitVec 32) = BitVec.ofNat 32 1 from rfl, word_eq_iff d 1 (by omega) (by omega)]
    omega

theorem pay1_eq (x : Vec Ideal S256x256 .f32) : k0_pay1 x = x := shapeCast_self x _

theorem pay5_apply (v : FVec Ideal S256x256 .f32) (q : Fin 256) : k0_pay5 v (ix2 (0 : Fin 1) q) = v (ix2 (0 : Fin 256) q) := by
  unfold k0_pay5
  exact slice2_axis0_apply 0 v _ 0 q 0 rfl

theorem pay7_apply (v : FVec Ideal S256x256 .f32) (q : Fin 256) : k0_pay7 v (ix2 (0 : Fin 1) q) = v (ix2 (255 : Fin 256) q) := by
  unfold k0_pay7
  exact slice2_axis0_apply 255 v _ 0 q 255 rfl

theorem pay4_apply (v : FVec Ideal S256x256 .f32) (h : Vec Ideal S1x1x256 .f32) (q : Fin 256) :
    k0_pay4 v h (ix2 (0 : Fin 1) q) = comb (h (ix3 (0 : Fin 1) (0 : Fin 1) q)) (v (ix2 (0 : Fin 256) q)) (v (ix2 (1 : Fin 256) q)) := by
  unfold k0_pay4 comb wq wh
  simp only [addf_apply, mulf_apply, broadcast_apply]
  rw [slice2_axis0_apply 0 v _ 0 q 0 rfl, slice2_axis0_apply 1 v _ 0 q 1 rfl, shapeCast_1ab_ab_apply]
  rfl

theorem pay6_apply (v : FVec Ideal S256x256 .f32) (h : Vec Ideal S1x1x256 .f32) (q : Fin 256) :
    k0_pay6 v h (ix2 (0 : Fin 1) q) = comb (v (ix2 (254 : Fin 256) q)) (v (ix2 (255 : Fin 256) q)) (h (ix3 (0 : Fin 1) (0 : Fin 1) q)) := by
  unfold k0_pay6 comb wq wh
  simp only [addf_apply, mulf_apply, broadcast_apply]
  rw [slice2_axis0_apply 254 v _ 0 q 254 rfl, slice2_axis0_apply 255 v _ 0 q 255 rfl, shapeCast_1ab_ab_apply]
  rfl

theorem select_cmpi_eq {w : ℕ} (a b : BitVec w) (A B : EReal) :
    Scalar.select (IntOp.cmpi .eq a b) A B = if a = b then A else B := by
  by_cases h : a = b
  · rw [if_pos h, IntOp.cmpi_eq.mpr h]; exact select_one A B
  · rw [if_neg h, eq_zero_of_ne_one (fun h1 => h (IntOp.cmpi_eq.mp h1))]; exact select_zero A B

def band : FVec Ideal S256x256 .f32 :=
  addf
    (select (k0_pay2) (broadcast S256x256 (Scalar.ofBits (F := Ideal) .f32 0x3F000000#32))
      (broadcast S256x256 (Scalar.ofBits (F := Ideal) .f32 0x00000000#32)))
    (select (cmpi .eq (absi (subi (iota .tc S256x256 32 [0] Facts₀.iota_S256x256_d0_w32) (iota .tc S256x256 32 [1] Facts₀.iota_S256x256_d1_w32)))
        (broadcast S256x256 1#32))
      (broadcast S256x256 (Scalar.ofBits (F := Ideal) .f32 0x3E800000#32))
      (broadcast S256x256 (Scalar.ofBits (F := Ideal) .f32 0x00000000#32)))

theorem mmV_eq (x : Vec Ideal S256x256 .f32) :
    KVal.mmV x = matmul dot_S256x256_S256x256_S256x256_1_0_0_1_n_n none band (k0_pay1 x) (constant S256x256 .f32 0x00000000#32) := rfl

theorem band_apply (r k : Fin 256) :
    band (ix2 r k) = (if r.val = k.val then wh else 0) + (if r.val = k.val + 1 ∨ k.val = r.val + 1 then wq else 0) := by
  have hz : Ideal.ofBits .f32 0x00000000#32 = 0 := Ideal.ofBits_zero_f32
  show Scalar.select (IntOp.cmpi .eq (iota .tc S256x256 32 [0] _ (ix2 r k)) (iota .tc S256x256 32 [1] _ (ix2 r k)))
        (Ideal.ofBits .f32 0x3F000000#32) (Ideal.ofBits .f32 0x00000000#32)
      + Scalar.select (IntOp.cmpi .eq (IntOp.absi (IntOp.subi (iota .tc S256x256 32 [0] _ (ix2 r k)) (iota .tc S256x256 32 [1] _ (ix2 r k)))) 1#32)
        (Ideal.ofBits .f32 0x3E800000#32) (Ideal.ofBits .f32 0x00000000#32) = _
  rw [iota_single_apply, iota_single_apply, select_cmpi_eq, select_cmpi_eq, hz]
  show (if BitVec.ofNat 32 r.val = BitVec.ofNat 32 k.val then wh else 0)
      + (if IntOp.absi (IntOp.subi (BitVec.ofNat 32 r.val) (BitVec.ofNat 32 k.val)) = 1#32 then wq else 0) = _
  simp only [word_eq_iff r.val k.val r.isLt k.isLt, absdiff_eq_one_iff r.val k.val r.isLt k.isLt]

theorem entry_mul (r k : ℕ) (y : EReal) :
    ((if r = k then wh else (0 : EReal)) + (if r = k + 1 ∨ k = r + 1 then wq else 0)) * y
      = (if r = k + 1 then wq * y else 0) + (if r = k then wh * y else 0) + (if k = r + 1 then wq * y else 0) := by
  by_cases c2 : r = k
  · have n1 : ¬ r = k + 1 := by omega
    have n3 : ¬ k = r + 1 := by omega
    have n13 : ¬ (r = k + 1 ∨ k = r + 1) := by omega
    simp only [if_pos c2, if_neg n1, if_neg n3, if_neg n13, add_zero, zero_add]
  · by_cases c1 : r = k + 1
    · have n3 : ¬ k = r + 1 := by omega
      simp only [if_neg c2, if_pos c1, if_neg n3, if_pos (Or.inl c1 : r = k + 1 ∨ k = r + 1), add_zero, zero_add]
    · by_cases c3 : k = r + 1
      · simp only [if_neg c2, if_neg c1, if_pos c3, if_pos (Or.inr c3 : r = k + 1 ∨ k = r + 1), add_zero, zero_add]
      · have n13 : ¬ (r = k + 1 ∨ k = r + 1) := by omega
        simp only [if_neg c2, if_neg c1, if_neg c3, if_neg n13, add_zero, zero_mul]

theorem row_sum (y : Fin 256 → EReal) (r : Fin 256) (h0 : 0 < r.val) (h255 : r.val < 255) :
    ∑ k : Fin 256, ((if r.val = k.val then wh else (0 : EReal)) + (if r.val = k.val + 1 ∨ k.val = r.val + 1 then wq else 0)) * y k
      = comb (y ⟨r.val - 1, by omega⟩) (y r) (y ⟨r.val + 1, by omega⟩) := by
  simp only [entry_mul]
  rw [Finset.sum_add_distrib, Finset.sum_add_distrib]
  unfold comb
  congr 1
  · congr 1
    · rw [Finset.sum_eq_single (⟨r.val - 1, by omega⟩ : Fin 256)]
      · exact if_pos (by show r.val = r.val - 1 + 1; omega)
      · intro b _ hb
        exact if_neg (fun h => hb (Fin.ext (by show b.val = r.val - 1; omega)))
      · intro h; exact absurd (Finset.mem_univ _) h
    · rw [Finset.sum_eq_single r]
      · exact if_pos rfl
      · intro b _ hb
        exact if_neg (fun h => hb (Fin.ext h.symm))
      · intro h; exact absurd (Finset.mem_univ _) h
  · rw [Finset.sum_eq_single (⟨r.val + 1, by omega⟩ : Fin 256)]
    · exact if_pos rfl
    · intro b _ hb
      exact if_neg (fun h => hb (Fin.ext h))
    · intro h; exact absurd (Finset.mem_univ _) h

/-- An interior row of the weight matrix times the block is the three-point combination of the rows around it. -/
theorem mmV_apply (x : Vec Ideal S256x256 .f32) (r q : Fin 256) (h0 : 0 < r.val) (h255 : r.val < 255) :
    KVal.mmV x (ix2 r q) = comb (x (ix2 (⟨r.val - 1, by omega⟩ : Fin 256) q)) (x (ix2 r q)) (x (ix2 (⟨r.val + 1, by omega⟩ : Fin 256) q)) := by
  rw [mmV_eq, pay1_eq]
  refine (LibRowOps.matmul_plain_apply _ rfl none band x r q).trans ?_
  simp only [band_apply]
  exact row_sum (fun k => x (ix2 k q)) r h0 h255

theorem updRow_apply {α : Type} (f : S256x256.Idx → α) (w : S1x256.Idx → α) (ro : ℕ) (h : S256x256.Slices ![ro, 0] S1x256)
    (p q : Fin 256) :
    updateSlice f w ![ro, 0] h (ix2 p q) = if p.val = ro then w (ix2 (0 : Fin 1) q) else f (ix2 p q) := by
  unfold updateSlice
  by_cases hr : p.val = ro
  · have hin : ∀ a : Fin S256x256.rank, (![ro, 0] : Fin 2 → ℕ) a ≤ ((ix2 p q : S256x256.Idx) a).val
        ∧ ((ix2 p q : S256x256.Idx) a).val < (![ro, 0] : Fin 2 → ℕ) a + S1x256.size (a.cast h.1.symm) := by
      intro a
      match a with
      | ⟨0, _⟩ => exact ⟨by show ro ≤ p.val; omega, by show p.val < ro + 1; omega⟩
      | ⟨1, _⟩ => exact ⟨Nat.zero_le _, by show q.val < 0 + 256; omega⟩
    rw [dif_pos hin, if_pos hr]
    congr 1
    funext b
    match b with
    | ⟨0, _⟩ => exact Fin.ext (by show p.val - ro = 0; omega)
    | ⟨1, _⟩ => exact Fin.ext (by show q.val - 0 = q.val; omega)
  · rw [dif_neg, if_neg hr]
    intro hin
    have h1 : ro ≤ p.val := (hin 0).1
    have h2 : p.val < ro + 1 := (hin 0).2
    exact hr (by omega)

theorem stencilB_ix2 (hasL hasR : Bool) (x : SB.Idx → EReal) (L R : SR.Idx → EReal) (p q : Fin 256) :
    stencilB hasL hasR x L R (ix2 p q) =
      if p.val = 0 ∧ hasL = false then x (ix2 p q)
      else if p.val = 255 ∧ hasR = false then x (ix2 p q)
      else comb
        (if h : p.val = 0 then L (ix2 (0 : Fin 1) q) else x (ix2 (⟨p.val - 1, by omega⟩ : Fin 256) q))
        (x (ix2 p q))
        (if h : p.val = 255 then R (ix2 (0 : Fin 1) q) else x (ix2 (⟨p.val + 1, by omega⟩ : Fin 256) q)) := rfl

/-- The product with its two edge rows overwritten is the block smoothing, row by row. -/
theorem outVal_eq (hasL hasR : Bool) (x xl xr : Vec Ideal S256x256 .f32) :
    KVal.outVal (F := Ideal) hasL hasR x (KVal.haloOf xl 255) (KVal.haloOf xr 0)
      = stencilB hasL hasR x (fun j => xl (ix2 (255 : Fin 256) (j 1))) (fun j => xr (ix2 (0 : Fin 256) (j 1))) := by
  unfold KVal.outVal
  have e1 := View.write_whole_slice_unit (Val := Elt Ideal) cc0_stg1_0 ![0, 0] S1x256.size Facts₀.inb_S256x256_S1x256_0_0
    (KVal.mmV x) (KVal.topV hasL x (KVal.haloOf xl 255))
  have e2 := fun f => View.write_whole_slice_unit (Val := Elt Ideal) cc0_stg1_0 ![255, 0] S1x256.size Facts₀.inb_S256x256_S1x256_255_0
    f (KVal.botV hasR x (KVal.haloOf xr 0))
  refine (e2 _).trans ?_
  refine (congrArg (fun f => updateSlice f (KVal.botV hasR x (KVal.haloOf xr 0)) ![255, 0] _) e1).trans ?_
  funext i
  obtain ⟨p, q, rfl⟩ : ∃ (p q : Fin 256), i = ix2 p q := ⟨i 0, i 1, eq_ix2 i⟩
  refine (updRow_apply _ _ 255 _ p q).trans ?_
  rw [stencilB_ix2]
  by_cases h255 : p.val = 255
  ·
    obtain rfl : p = (255 : Fin 256) := Fin.ext h255
    have v255 : (255 : Fin 256).val = 255 := rfl
    have n0 : ¬ (255 : Fin 256).val = 0 := by decide
    rw [if_pos v255, if_neg (fun h => n0 h.1)]
    cases hasR
    · rw [if_pos ⟨v255, rfl⟩]
      show k0_pay7 (k0_pay1 x) (ix2 (0 : Fin 1) q) = _
      rw [pay7_apply, pay1_eq]
    · rw [if_neg (fun h => absurd h.2 (by decide)), dif_neg n0, dif_pos v255]
      show k0_pay6 (k0_pay1 x) (KVal.haloOf xr 0) (ix2 (0 : Fin 1) q) = _
      rw [pay6_apply, pay1_eq]
      rfl
  · rw [if_neg h255]
    refine (updRow_apply _ _ 0 _ p q).trans ?_
    by_cases h0 : p.val = 0
    ·
      obtain rfl : p = (0 : Fin 256) := Fin.ext h0
      have v0 : (0 : Fin 256).val = 0 := rfl
      have n255 : ¬ (0 : Fin 256).val = 255 := by decide
      rw [if_pos v0]
      cases hasL
      · rw [if_pos ⟨v0, rfl⟩]
        show k0_pay5 (k0_pay1 x) (ix2 (0 : Fin 1) q) = _
        rw [pay5_apply, pay1_eq]
      · rw [if_neg (fun h => absurd h.2 (by decide)), if_neg (fun h => n255 h.1), dif_pos v0, dif_neg n255]
        show k0_pay4 (k0_pay1 x) (KVal.haloOf xl 255) (ix2 (0 : Fin 1) q) = _
        rw [pay4_apply, pay1_eq]
        rfl
    ·
      rw [if_neg h0, if_neg (fun h => h0 h.1), if_neg (fun h => h255 h.1), dif_neg h0, dif_neg h255]
      exact mmV_apply x p q (by omega) (by omega)
/-- info: 'Cert.KernelIdeal.KValue.outVal_eq' depends on axioms: [propext, Classical.choice, Quot.sound] -/
#guard_msgs in #print axioms outVal_eq
end Cert.KernelIdeal.KValue
end
-- ==== Proof.Bridge.lean ====
import proofs.«900540_g7700000000000541_dist_halo_stencil_i_m256_n256_v7x_i32_f32_1_alg».proof.Proof.Spec
import Idealize.ShloMosaic.Lib.Layout
noncomputable section
namespace Cert.Bridge
open Idealize.ShloMosaic Idealize.ShloMosaic.ValueIdx Cert.Spec

theorem sw_ext (a b : SW.Idx) (h0 : (a 0).val = (b 0).val) (h1 : (a 1).val = (b 1).val) : a = b := by
  funext d
  match d with
  | ⟨0, _⟩ => exact Fin.ext h0
  | ⟨1, _⟩ => exact Fin.ext h1

theorem row_val (hT : Layout.Tiles SB SW 0 32) (c : Fin 32) (i : SB.Idx) :
    (hT.idx c i 0).val = c.val * 256 + (i 0).val := rfl

theorem col_val (hT : Layout.Tiles SB SW 0 32) (c : Fin 32) (i : SB.Idx) :
    (hT.idx c i 1).val = (i 1).val := rfl

/-- Block c of the smoothing of X is the block smoothing of block c of X with its neighbours' edge rows. -/
theorem block_stencil (X : SW.Idx → EReal) (c cl cr : Fin 32)
    (hl : 0 < c.val → cl.val + 1 = c.val) (hr : c.val < 31 → cr.val = c.val + 1) :
    Layout.block ⟨2, ![256, 256]⟩ ⟨2, ![8192, 256]⟩ 0 32 c (stencilW X)
      = stencilB (decide (0 < c.val)) (decide (c.val < 31)) (Layout.block ⟨2, ![256, 256]⟩ ⟨2, ![8192, 256]⟩ 0 32 c X)
          (fun j => (Layout.block ⟨2, ![256, 256]⟩ ⟨2, ![8192, 256]⟩ 0 32 cl X) (ix2 (255 : Fin 256) (j 1)))
          (fun j => (Layout.block ⟨2, ![256, 256]⟩ ⟨2, ![8192, 256]⟩ 0 32 cr X) (ix2 (0 : Fin 256) (j 1))) := by
  funext i
  have hi : (i 0).val < 256 := idx2_lt0 i
  have hc : c.val < 32 := c.isLt
  have hcl : cl.val < 32 := cl.isLt
  have hcr : cr.val < 32 := cr.isLt
  simp only [Layout.block_apply]
  unfold stencilW stencilB
  have hrow := row_val (by decide) c i
  have hcol := col_val (by decide) c i
  by_cases h0 : (i 0).val = 0
  · by_cases hc0 : c.val = 0
    ·
      have e1 : ((by decide : Layout.Tiles SB SW 0 32).idx c i 0).val = 0 := by rw [hrow]; omega
      have e2 : decide (0 < c.val) = false := by rw [hc0]; rfl
      rw [dif_pos e1, if_pos ⟨h0, e2⟩]
      rfl
    ·
      have e1 : ¬ ((by decide : Layout.Tiles SB SW 0 32).idx c i 0).val = 0 := by rw [hrow]; omega
      have e2 : ¬ ((by decide : Layout.Tiles SB SW 0 32).idx c i 0).val = 8191 := by rw [hrow]; omega
      have e3 : ¬ ((i 0).val = 0 ∧ decide (0 < c.val) = false) := by
        rintro ⟨-, h⟩; exact hc0 (by have := of_decide_eq_false h; omega)
      have e4 : ¬ ((i 0).val = 255 ∧ decide (c.val < 31) = false) := by rintro ⟨h, -⟩; omega
      have e5 : ¬ (i 0).val = 255 := by omega
      have hcl1 : cl.val + 1 = c.val := hl (by omega)
      rw [dif_neg e1, dif_neg e2, if_neg e3, if_neg e4, dif_pos h0, dif_neg e5]
      refine congrArg₂ (fun a b => comb a (X _) b) (congrArg X (sw_ext _ _ ?_ ?_)) (congrArg X (sw_ext _ _ ?_ ?_))
      · show ((by decide : Layout.Tiles SB SW 0 32).idx c i 0).val - 1 = cl.val * 256 + 255
        rw [hrow]; omega
      · exact hcol
      · show ((by decide : Layout.Tiles SB SW 0 32).idx c i 0).val + 1 = c.val * 256 + ((i 0).val + 1)
        rw [hrow]; omega
      · exact hcol
  · by_cases h255 : (i 0).val = 255
    · by_cases hc31 : c.val = 31
      ·
        have e1 : ¬ ((by decide : Layout.Tiles SB SW 0 32).idx c i 0).val = 0 := by rw [hrow]; omega
        have e2 : ((by decide : Layout.Tiles SB SW 0 32).idx c i 0).val = 8191 := by rw [hrow]; omega
        have e3 : ¬ ((i 0).val = 0 ∧ decide (0 < c.val) = false) := by rintro ⟨h, -⟩; exact h0 h
        have e4 : decide (c.val < 31) = false := by rw [hc31]; rfl
        rw [dif_neg e1, dif_pos e2, if_neg e3, if_pos ⟨h255, e4⟩]
        rfl
      ·
        have e1 : ¬ ((by decide : Layout.Tiles SB SW 0 32).idx c i 0).val = 0 := by rw [hrow]; omega
        have e2 : ¬ ((by decide : Layout.Tiles SB SW 0 32).idx c i 0).val = 8191 := by rw [hrow]; omega
        have e3 : ¬ ((i 0).val = 0 ∧ decide (0 < c.val) = false) := by rintro ⟨h, -⟩; exact h0 h
        have e4 : ¬ ((i 0).val = 255 ∧ decide (c.val < 31) = false) := by
          rintro ⟨-, h⟩; exact hc31 (by have := of_decide_eq_false h; omega)
        have hcr1 : cr.val = c.val + 1 := hr (by omega)
        rw [dif_neg e1, dif_neg e2, if_neg e3, if_neg e4, dif_neg h0, dif_pos h255]
        refine congrArg₂ (fun a b => comb a (X _) b) (congrArg X (sw_ext _ _ ?_ ?_)) (congrArg X (sw_ext _ _ ?_ ?_))
        · show ((by decide : Layout.Tiles SB SW 0 32).idx c i 0).val - 1 = c.val * 256 + ((i 0).val - 1)
          rw [hrow]; omega
        · exact hcol
        · show ((by decide : Layout.Tiles SB SW 0 32).idx c i 0).val + 1 = cr.val * 256 + 0
          rw [hrow]; omega
        · exact hcol
    ·
      have e1 : ¬ ((by decide : Layout.Tiles SB SW 0 32).idx c i 0).val = 0 := by rw [hrow]; omega
      have e2 : ¬ ((by decide : Layout.Tiles SB SW 0 32).idx c i 0).val = 8191 := by rw [hrow]; omega
      have e3 : ¬ ((i 0).val = 0 ∧ decide (0 < c.val) = false) := by rintro ⟨h, -⟩; exact h0 h
      have e4 : ¬ ((i 0).val = 255 ∧ decide (c.val < 31) = false) := by rintro ⟨h, -⟩; exact h255 h
      rw [dif_neg e1, dif_neg e2, if_neg e3, if_neg e4, dif_neg h0, dif_neg h255]
      refine congrArg₂ (fun a b => comb a (X _) b) (congrArg X (sw_ext _ _ ?_ ?_)) (congrArg X (sw_ext _ _ ?_ ?_))
      · show ((by decide : Layout.Tiles SB SW 0 32).idx c i 0).val - 1 = c.val * 256 + ((i 0).val - 1)
        rw [hrow]; omega
      · exact hcol
      · show ((by decide : Layout.Tiles SB SW 0 32).idx c i 0).val + 1 = c.val * 256 + ((i 0).val + 1)
        rw [hrow]; omega
      · exact hcol
/-- info: 'Cert.Bridge.block_stencil' depends on axioms: [propext, Classical.choice, Quot.sound] -/
#guard_msgs in #print axioms block_stencil
end Cert.Bridge
end
-- ==== Proof.Value.lean ====
import proofs.«900540_g7700000000000541_dist_halo_stencil_i_m256_n256_v7x_i32_f32_1_alg».proof.Proof.Xstg
import proofs.«900540_g7700000000000541_dist_halo_stencil_i_m256_n256_v7x_i32_f32_1_alg».proof.Proof.KValue
import proofs.«900540_g7700000000000541_dist_halo_stencil_i_m256_n256_v7x_i32_f32_1_alg».proof.Proof.Bridge
noncomputable section
namespace Cert.KernelIdeal.Proto
open Cert.KernelIdeal Cert.KernelIdeal.Gen Cert.KernelIdeal.Mems
open Idealize.ShloMosaic Idealize.ShloMosaic.TcCoe Idealize.SL.Sem
variable (m : (ℓ : Loc nD τ sig) → Buf (Elt Ideal) ℓ) (ρ : Dev nD → PrngReg)

theorem out_is_block (X : Cert.Spec.SW.Idx → EReal)
    (hagree : ∀ c : Dev nD, m ((c.tc : Thread nD τ).loc main_arg0) = Layout.block ⟨2, ![256, 256]⟩ ⟨2, ![8192, 256]⟩ 0 32 c X) (c : Dev nD) :
    outAt (F := Ideal) m ρ c = Layout.block ⟨2, ![256, 256]⟩ ⟨2, ![8192, 256]⟩ 0 32 c (Cert.Spec.stencilW X) := by
  unfold outAt
  rw [xstg_eq, xstg_eq, xstg_eq, hagree c, hagree (lft c), hagree (rgt c)]
  exact (Cert.KernelIdeal.KValue.outVal_eq _ _ _ _ _).trans
    (Cert.Bridge.block_stencil X c (lft c) (rgt c) (fun h => lft_val h) (fun h => rgt_val h)).symm
end Cert.KernelIdeal.Proto
end
-- ==== Proof.RefTerm.lean ====
import proofs.«900540_g7700000000000541_dist_halo_stencil_i_m256_n256_v7x_i32_f32_1_alg».proof.ReferenceIdeal
import proofs.«900540_g7700000000000541_dist_halo_stencil_i_m256_n256_v7x_i32_f32_1_alg».proof.Proof.Gen.ReferenceIdeal
noncomputable section
namespace Cert.ReferenceIdeal.RefTerm
open Idealize.ShloMosaic Cert.ReferenceIdeal Cert.ReferenceIdeal.Facts₀
variable {F : FTy → Type} [FloatOps F]

def rowOf (off : Fin 2 → Nat) (h : S8192x256.Slices off S1x256) (x : FVec F S8192x256 .f32) : FVec F S256 .f32 :=
  shapeCast S256 (extractStridedSlice S1x256 off x h) shapeCasts_S1x256_S256

def startAt (k : BitVec 32) : IVec S1 32 := broadcastInDim S1 ![] bcast_S_S1 (constantI S_ 32 k)

def interior (x : FVec F S8192x256 .f32) : FVec F S8190x256 .f32 :=
  addf
    (addf
      (mulf (broadcastInDim S8190x256 ![] bcast_S_S8190x256 (constant S_ .f32 0x3E800000#32))
        (extractStridedSlice S8190x256 ![0, 0] x slices_S8192x256_S8190x256_0_0))
      (mulf (broadcastInDim S8190x256 ![] bcast_S_S8190x256 (constant S_ .f32 0x3F000000#32))
        (extractStridedSlice S8190x256 ![1, 0] x slices_S8192x256_S8190x256_1_0)))
    (mulf (broadcastInDim S8190x256 ![] bcast_S_S8190x256 (constant S_ .f32 0x3E800000#32))
      (extractStridedSlice S8190x256 ![2, 0] x slices_S8192x256_S8190x256_2_0))

def refTerm (x a0 : FVec F S8192x256 .f32) : FVec F S8192x256 .f32 :=
  Host.scatter scatter_S8192x256_S1_S8190x256_01_n_0_0 (fun _ b => b)
    (Host.scatter scatter_S8192x256_S1_S256_0_0_0_0 (fun _ b => b)
      (Host.scatter scatter_S8192x256_S1_S256_0_0_0_0 (fun _ b => b) a0 (startAt 0#32)
        (rowOf ![0, 0] slices_S8192x256_S1x256_0_0 x))
      (startAt 8191#32) (rowOf ![8191, 0] slices_S8192x256_S1x256_8191_0 x))
    (startAt 1#32) (interior x)
end Cert.ReferenceIdeal.RefTerm
end
-- ==== Proof.RefRun.lean ====
import proofs.«900540_g7700000000000541_dist_halo_stencil_i_m256_n256_v7x_i32_f32_1_alg».proof.Proof.RefTerm
import Idealize.ShloMosaic.Lib.StableHlo.Run
noncomputable section
namespace Cert.ReferenceIdeal.RefRun
open Cert.ReferenceIdeal Cert.ReferenceIdeal.Facts₀ Idealize.ShloMosaic Idealize.ShloMosaic.TcCoe Idealize.SL.Sem
open Idealize.ShloMosaic.StableHlo
open Idealize.SL Idealize.SL.RA Idealize.SL.BI
open scoped Idealize.SL.BI
open Idealize.SL.BI.BIBase Idealize.SL.BI.Laws Idealize.SL.ProofMode
variable {F : FTy → Type} [FloatOps F]

abbrev ops : List (HloOp τ sig (Elt F)) :=
  [
    unary main_arg0 main_v1 (extractStridedSlice S1x256 ![0, 0] · slices_S8192x256_S1x256_0_0),
    reshape main_v1 main_v2 rfl shapeCasts_S1x256_S256,
    nullary main_c (constantI S_ 32 0#32),
    unary main_c main_v3 (broadcastInDim S1 ![] bcast_S_S1),
    ternary main_v0 main_v3 main_v2 main_v4 (Host.scatter scatter_S8192x256_S1_S256_0_0_0_0 fun _ b => b),
    unary main_arg0 main_v5 (extractStridedSlice S1x256 ![8191, 0] · slices_S8192x256_S1x256_8191_0),
    reshape main_v5 main_v6 rfl shapeCasts_S1x256_S256,
    nullary main_c_0 (constantI S_ 32 8191#32),
    unary main_c_0 main_v7 (broadcastInDim S1 ![] bcast_S_S1),
    ternary main_v4 main_v7 main_v6 main_v8 (Host.scatter scatter_S8192x256_S1_S256_0_0_0_0 fun _ b => b),
    unary main_arg0 main_v9 (extractStridedSlice S8190x256 ![0, 0] · slices_S8192x256_S8190x256_0_0),
    nullary main_cst (constant S_ .f32 0x3E800000#32),
    unary main_cst main_v10 (broadcastInDim S8190x256 ![] bcast_S_S8190x256),
    binary main_v10 main_v9 main_v11 mulf,
    unary main_arg0 main_v12 (extractStridedSlice S8190x256 ![1, 0] · slices_S8192x256_S8190x256_1_0),
    nullary main_cst_1 (constant S_ .f32 0x3F000000#32),
    unary main_cst_1 main_v13 (broadcastInDim S8190x256 ![] bcast_S_S8190x256),
    binary main_v13 main_v12 main_v14 mulf,
    binary main_v11 main_v14 main_v15 addf,
    unary main_arg0 main_v16 (extractStridedSlice S8190x256 ![2, 0] · slices_S8192x256_S8190x256_2_0),
    nullary main_cst_2 (constant S_ .f32 0x3E800000#32),
    unary main_cst_2 main_v17 (broadcastInDim S8190x256 ![] bcast_S_S8190x256),
    binary main_v17 main_v16 main_v18 mulf,
    binary main_v15 main_v18 main_v19 addf,
    nullary main_c_3 (constantI S_ 32 1#32),
    unary main_c_3 main_v20 (broadcastInDim S1 ![] bcast_S_S1),
    ternary main_v8 main_v20 main_v19 main_v21 (Host.scatter scatter_S8192x256_S1_S8190x256_01_n_0_0 fun _ b => b) ]

theorem main_eq (c : Dev nD) :
    main (F := F) c = ((hlo rfl (allocateBuffer main_v0) fun _ => .ret (⟨⟩ : PUnit)) >>= fun _ => seq ops) := rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., nullary_bufs_sub .., unary_bufs_sub .., ternary_bufs_sub ..⟩

theorem ops_fresh : ∀ op ∈ (ops : List (HloOp τ sig (Elt F))), op.fresh = ∅ := by
  intro _ h; (repeat (cases h with | head => rfl | tail _ h => ?_)); exact nomatch h

def alloc (V : Valuation τ sig (Elt F)) (a0 : FVec F S8192x256 .f32) : Valuation τ sig (Elt F) :=
  Function.update V (Proc.devRef .tc main_v0) a0

theorem alloc_self (V : Valuation τ sig (Elt F)) (a0 : FVec F S8192x256 .f32) :
    alloc V a0 (Proc.devRef .tc main_v0) = a0 := Function.update_self ..

theorem alloc_of_ne (V : Valuation τ sig (Elt F)) (a0 : FVec F S8192x256 .f32) {b : DevRef τ sig}
    (h : b ≠ Proc.devRef .tc main_v0) : alloc V a0 b = V b := Function.update_of_ne h ..
section Run
local notation "𝕄" => MT nD τ sig Unit (Elt F) ℕ (Option PUnit) Unit

theorem v0_sub : ({Proc.devRef .tc main_v0} : Finset (DevRef τ sig)) ⊆ tcRefs τ sig :=
  Finset.singleton_subset_iff.mpr (devRef_mem_tcRefs main_v0)

theorem held_split_v0 (c : Thread nD τ) (V : Valuation τ sig (Elt F)) :
    (held c (tcRefs τ sig) V : sProp 𝕄)
      = iprop(((c.1, Proc.devRef .tc main_v0) ↦{fullShare} V (Proc.devRef .tc main_v0))
          ∗ held c (tcRefs τ sig \ {Proc.devRef .tc main_v0}) V) := by
  rw [held_sub_split c v0_sub V]
  congr 1
  unfold held
  rw [bigSep_singleton]

theorem held_alloc (c : Thread nD τ) (V : Valuation τ sig (Elt F)) (a0 : FVec F S8192x256 .f32) :
    (held c (tcRefs τ sig) (alloc V a0) : sProp 𝕄)
      = iprop(((c.1, Proc.devRef .tc main_v0) ↦{fullShare} a0)
          ∗ held c (tcRefs τ sig \ {Proc.devRef .tc main_v0}) V) := by
  rw [held_split_v0 c (alloc V a0), alloc_self,
    held_congr c (S := tcRefs τ sig \ {Proc.devRef .tc main_v0}) (V := alloc V a0) (V' := V) fun b hb =>
      alloc_of_ne V a0 fun e => (Finset.mem_sdiff.mp hb).2 (Finset.mem_singleton.mpr e)]

theorem boundary_intro (d : Dev nD) : (opIdle (d.tc : Thread nD τ) : sProp 𝕄) ⊢ boundary (d.tc : Thread nD τ) :=
  boundary_of_opIdle (d.tc : Thread nD τ) (by rw [scopedRefs_tc, scopedRefs_eq, Finset.map_empty])
    (by rw [show (d.tc : Thread nD τ) = (d, .tc) from rfl, scopedCells_tc, scopedSems_eq, Finset.map_empty])

theorem launchBufs_held (m : (ℓ : Loc nD τ sig) → Buf (Elt F) ℓ) (ρ : Dev nD → PrngReg) (d : Dev nD) :
    (bigSep Finset.univ fun b : Ref sig .tc =>
        ((d.tc : Thread nD τ).loc b ↦{fullShare} (⟨m, fun _ => 0, ρ⟩ : MemSt nD τ sig (Elt F)).mem ((d.tc : Thread nD τ).loc b) : sProp 𝕄))
      = held (d.tc : Thread nD τ) (tcRefs τ sig) (launchContents m d) := by
  unfold held tcRefs; rw [bigSep_map]; rfl

def ΦC (m : (ℓ : Loc nD τ sig) → Buf (Elt F) ℓ) (d : Dev nD) : sProp 𝕄 :=
  iprop(∃ a0 : FVec F S8192x256 .f32, held (d.tc : Thread nD τ) (tcRefs τ sig) (after ops (alloc (launchContents m d) a0)))

set_option backward.isDefEq.respectTransparency.types false in
theorem step (m : (ℓ : Loc nD τ sig) → Buf (Elt F) ℓ) (ρ : Dev nD → PrngReg) (d : Dev nD) :
    iprop((bigSep Finset.univ fun b : Ref sig .tc =>
            ((d.tc : Thread nD τ).loc b ↦{fullShare} (⟨m, fun _ => 0, ρ⟩ : MemSt nD τ sig (Elt F)).mem ((d.tc : Thread nD τ).loc b)))
        ∗ owes (d.tc : Thread nD τ) 0 ∅ ∗ prngReg d (ρ d) ∗ opIdle (d.tc : Thread nD τ))
      ⊢ wp frame (wpE (defs (F := F)) Variants.none (d.tc : Thread nD τ) none) Set.univ (main (F := F) d)
          (fun _ => post (liftTc (ΦC m) BI.emp) (d.tc : Thread nD τ) : PUnit → sProp 𝕄) := by
  rw [launchBufs_held, held_split_v0, main_eq,
    show (seq ops : Prog (TpuEff nD τ sig (Elt F) _ .tc) PUnit) = (seq ops >>= fun u => Pure.pure u) from (bind_pure _).symm,
    wp_bind]
  iintro ⟨⟨Hy, Hrest⟩, HO, -, Hidle⟩
  ihave Hb := (boundary_intro (F := F) d) $$ Hidle
  iapply (wp_allocateBuffer Variants.none (d.tc : Thread nD τ) none Set.univ main_v0 ⟨by decide, rfl⟩) $$ [Hb Hy]
  · iframe
  iintro %r ⟨Hb, Hy⟩
  rw [wp_ret]; imodintro
  iapply (wp_seq Variants.none none Set.univ d (tcRefs τ sig) (fun u => Pure.pure u) ops
    (List.forall_iff_forall_mem.1 ops_sub) ops_fresh
    (alloc (launchContents m d) (r ⟨Proc.devRef .tc main_v0, Finset.mem_singleton_self _⟩))) $$ [Hb Hy Hrest]
  · rw [held_alloc]; iframe
  iintro ⟨-, Hheld⟩
  rw [wp_pure]; imodintro
  unfold post ΦC; simp only [liftTc_tc]
  isplitl [Hheld]
  · iexists (r ⟨Proc.devRef .tc main_v0, Finset.mem_singleton_self _⟩); iexact Hheld
  iexists ∅; iexact HO

theorem post_pins (m : (ℓ : Loc nD τ sig) → Buf (Elt F) ℓ) (d : Dev nD) (s' : Phys nD τ sig (Elt F)) :
    iprop(ΦC m d ∗ SI s')
      ⊢ (⌜∃ a0 : FVec F S8192x256 .f32, ∀ b : Ref sig .tc,
            s'.mem.mem ((d.tc : Thread nD τ).loc b) = after ops (alloc (launchContents m d) a0) (Proc.devRef .tc b)⌝ : sProp 𝕄) := by
  unfold ΦC held
  iintro ⟨⟨%a0, H⟩, HSI⟩
  ihave %h := (SI_pointsTo_bufs_agree (qs := fun _ => fullShare) (tcRefs τ sig)) $$ [HSI H]
  · iframe
  ipureintro
  exact ⟨a0, fun b => h _ (devRef_mem_tcRefs b)⟩
end Run

theorem after_v21 (V : Valuation τ sig (Elt F)) (a0 : FVec F S8192x256 .f32) :
    after ops (alloc V a0) (Proc.devRef .tc main_v21) = RefTerm.refTerm (V (Proc.devRef .tc main_arg0)) a0 := by
  after_results
  rw [alloc_self, alloc_of_ne V a0 (devRef_ne_of_ne (by decide))]
  rfl

theorem after_arg0 (V : Valuation τ sig (Elt F)) (a0 : FVec F S8192x256 .f32) :
    after ops (alloc V a0) (Proc.devRef .tc main_arg0) = V (Proc.devRef .tc main_arg0) := by
  after_results
  exact alloc_of_ne V a0 (devRef_ne_of_ne (by decide))

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (∃ a0, r.2.mem ((c.tc : Thread nD τ).loc main_v21) = RefTerm.refTerm (m ((c.tc : Thread nD τ).loc main_arg0)) a0)
      ∧ r.2.mem ((c.tc : Thread nD τ).loc main_arg0) = m ((c.tc : Thread nD τ).loc main_arg0)) :=
  adequate_tpu defs _ _ _ (reflect_intro_silent_tc (Ix := Unit) (Name := ℕ) (U := Option PUnit) (Lvl := Unit)
    Variants.none none (ΦC m)
    (fun d mem => ∃ a0 : FVec F S8192x256 .f32, ∀ b : Ref sig .tc,
      mem.mem ((d.tc : Thread nD τ).loc b) = after ops (alloc (launchContents m d) a0) (Proc.devRef .tc b))
    (step m ρ) (post_pins m)
    (fun _ h c => by
      obtain ⟨a0, hb⟩ := h c
      exact ⟨⟨a0, (hb main_v21).trans (after_v21 _ a0)⟩, (hb main_arg0).trans (after_arg0 _ a0)⟩))
/-- info: 'Cert.ReferenceIdeal.RefRun.run' depends on axioms: [propext, Classical.choice, Quot.sound] -/
#guard_msgs in #print axioms run
end Cert.ReferenceIdeal.RefRun
end
-- ==== Proof.LibScatter.lean ====
import Idealize.ShloMosaic.PureOps.ShapeOps
namespace Idealize.ShloMosaic
section ScatterAt
variable {s si u : Shape} {α : Type} {w : Nat}

private abbrev scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

private theorem scatterStep_of_ne (d : ScatterDims s si u) (f : α → α → α) (idx : IVec si w) (upd : u.Idx → α)
    (r : s.Idx → α) (n : Fin u.numel) (i : s.Idx) (h : d.resultIdx? (u.rowMajor.symm n) idx ≠ some i) :
    scatterStep d f idx upd r n i = r i := by
  unfold scatterStep
  cases hq : d.resultIdx? (u.rowMajor.symm n) idx with
  | none => rfl
  | some i0 =>
    have hne : i ≠ i0 := fun e => h (by rw [hq, e])
    show (if i = i0 then _ else r i) = r i
    rw [if_neg hne]

private theorem scatterStep_of_eq (d : ScatterDims s si u) (f : α → α → α) (idx : IVec si w) (upd : u.Idx → α)
    (r : s.Idx → α) (n : Fin u.numel) (i : s.Idx) (h : d.resultIdx? (u.rowMajor.symm n) idx = some i) :
    scatterStep d f idx upd r n i = f (r i) (upd (u.rowMajor.symm n)) := by
  unfold scatterStep
  rw [h]
  show (if i = i then _ else r i) = _
  rw [if_pos rfl]

private theorem foldl_scatterStep_of_forall_ne (d : ScatterDims s si u) (f : α → α → α) (idx : IVec si w) (upd : u.Idx → α)
    (i : s.Idx) (l : List (Fin u.numel)) :
    ∀ (r : s.Idx → α), (∀ n ∈ l, d.resultIdx? (u.rowMajor.symm n) idx ≠ some i) →
      l.foldl (scatterStep d f idx upd) r i = r i := by
  induction l with
  | nil => intro r _; rfl
  | cons m l ih =>
    intro r h
    rw [List.foldl_cons, ih _ (fun n hn => h n (List.mem_cons_of_mem _ hn))]
    exact scatterStep_of_ne d f idx upd r m i (h m List.mem_cons_self)

private theorem foldl_scatterStep_of_unique (d : ScatterDims s si u) (f : α → α → α) (idx : IVec si w) (upd : u.Idx → α)
    (i : s.Idx) (n : Fin u.numel) (hn : d.resultIdx? (u.rowMajor.symm n) idx = some i) (l : List (Fin u.numel)) :
    ∀ (r : s.Idx → α), l.Nodup → n ∈ l → (∀ m ∈ l, d.resultIdx? (u.rowMajor.symm m) idx = some i → m = n) →
      l.foldl (scatterStep d f idx upd) r i = f (r i) (upd (u.rowMajor.symm n)) := by
  induction l with
  | nil => intro r _ hmem; exact absurd hmem List.not_mem_nil
  | cons m l ih =>
    intro r hnd hmem huniq
    rw [List.foldl_cons]
    have hnd' := List.nodup_cons.mp hnd
    by_cases hmn : m = n
    · subst hmn
      rw [foldl_scatterStep_of_forall_ne d f idx upd i l _ (fun k hk hq =>
        hnd'.1 (by rw [← huniq k (List.mem_cons_of_mem _ hk) hq]; exact hk))]
      exact scatterStep_of_eq d f idx upd r m i hn
    · have hmem' : n ∈ l := by
        rcases List.mem_cons.mp hmem with h | h
        · exact absurd h.symm hmn
        · exact h
      rw [ih _ hnd'.2 hmem' (fun k hk hq => huniq k (List.mem_cons_of_mem _ hk) hq)]
      rw [scatterStep_of_ne d f idx upd r m i (fun hq => hmn (huniq m List.mem_cons_self hq))]

theorem Host.scatter_apply_of_forall_ne (d : ScatterDims s si u) (f : α → α → α) (x : s.Idx → α) (idx : IVec si w)
    (upd : u.Idx → α) (i : s.Idx) (h : ∀ j : u.Idx, d.resultIdx? j idx ≠ some i) :
    Host.scatter d f x idx upd i = x i :=
  foldl_scatterStep_of_forall_ne d f idx upd i _ x (fun n _ => h _)

theorem Host.scatter_apply_of_unique (d : ScatterDims s si u) (f : α → α → α) (x : s.Idx → α) (idx : IVec si w)
    (upd : u.Idx → α) (i : s.Idx) (j : u.Idx) (hj : d.resultIdx? j idx = some i)
    (huniq : ∀ j' : u.Idx, d.resultIdx? j' idx = some i → j' = j) :
    Host.scatter d f x idx upd i = f (x i) (upd j) := by
  have hn : d.resultIdx? (u.rowMajor.symm (u.rowMajor j)) idx = some i := by rw [Equiv.symm_apply_apply]; exact hj
  have := foldl_scatterStep_of_unique d f idx upd i (u.rowMajor j) hn (List.finRange u.numel) x
    (List.nodup_finRange _) (List.mem_finRange _)
    (fun m _ hq => by rw [← huniq _ hq, Equiv.apply_symm_apply])
  rw [Equiv.symm_apply_apply] at this
  exact this

theorem Host.scatter_keep_apply_of_unique (d : ScatterDims s si u) (x : s.Idx → α) (idx : IVec si w)
    (upd : u.Idx → α) (i : s.Idx) (j : u.Idx) (hj : d.resultIdx? j idx = some i)
    (huniq : ∀ j' : u.Idx, d.resultIdx? j' idx = some i → j' = j) :
    Host.scatter d (fun _ b => b) x idx upd i = upd j :=
  Host.scatter_apply_of_unique d (fun _ b => b) x idx upd i j hj huniq

/-- The result index of an update is `i` as soon as start plus window is `i`'s coordinate on every operand axis. -/
theorem ScatterDims.resultIdx?_eq_some (d : ScatterDims s si u) (j : u.Idx) (idx : IVec si w) (i : s.Idx)
    (h : ∀ a, d.start j idx a + d.window j a = ((i a).val : Int)) : d.resultIdx? j idx = some i := by
  have hb : ∀ a, 0 ≤ d.start j idx a + d.window j a ∧ d.start j idx a + d.window j a < s.size a := fun a => by
    have := (i a).isLt; rw [h a]; omega
  unfold ScatterDims.resultIdx?
  rw [dif_pos hb]
  exact congrArg some (funext fun a => Fin.ext (by show (d.start j idx a + d.window j a).toNat = (i a).val; rw [h a]; omega))
end ScatterAt
end Idealize.ShloMosaic
-- ==== Proof.RefLanding.lean ====
import proofs.«900540_g7700000000000541_dist_halo_stencil_i_m256_n256_v7x_i32_f32_1_alg».proof.Proof.RefTerm
import proofs.«900540_g7700000000000541_dist_halo_stencil_i_m256_n256_v7x_i32_f32_1_alg».proof.Proof.LibScatter
import Idealize.ShloMosaic.Lib.ValueIdx
noncomputable section
namespace Cert.ReferenceIdeal.RefValue
open Idealize.ShloMosaic Idealize.ShloMosaic.ValueIdx Cert.ReferenceIdeal Cert.ReferenceIdeal.Facts₀ Cert.ReferenceIdeal.RefTerm

theorem toInt_start0 : (0#32 : BitVec 32).toInt = ((0 : Nat) : Int) := by decide

theorem toInt_start1 : (1#32 : BitVec 32).toInt = ((1 : Nat) : Int) := by decide

theorem toInt_start8191 : (8191#32 : BitVec 32).toInt = ((8191 : Nat) : Int) := by decide

theorem row_start0 (k : BitVec 32) (j : S256.Idx) :
    scatter_S8192x256_S1_S256_0_0_0_0.start j (startAt k) 0 = k.toInt := by
  unfold ScatterDims.start
  rw [dif_pos (show (0 : Fin 2) ∈ scatter_S8192x256_S1_S256_0_0_0_0.scatterDimsToOperandDims from List.mem_singleton.mpr rfl)]
  rfl

theorem row_start1 (k : BitVec 32) (j : S256.Idx) :
    scatter_S8192x256_S1_S256_0_0_0_0.start j (startAt k) 1 = 0 := by
  unfold ScatterDims.start
  rw [dif_neg (show (1 : Fin 2) ∉ scatter_S8192x256_S1_S256_0_0_0_0.scatterDimsToOperandDims from by decide)]

theorem row_window0 (j : S256.Idx) : scatter_S8192x256_S1_S256_0_0_0_0.window j 0 = 0 := by
  unfold ScatterDims.window
  rw [dif_neg (show (0 : Fin 2) ∉ scatter_S8192x256_S1_S256_0_0_0_0.sKept from by decide)]

theorem row_window1 (j : S256.Idx) : scatter_S8192x256_S1_S256_0_0_0_0.window j 1 = (j 0).val := by
  unfold ScatterDims.window
  rw [dif_pos (show (1 : Fin 2) ∈ scatter_S8192x256_S1_S256_0_0_0_0.sKept from by decide)]
  rfl

theorem row_resultIdx (k : BitVec 32) (r : Fin 8192) (hk : k.toInt = ((r.val : Nat) : Int)) (j : S256.Idx) :
    scatter_S8192x256_S1_S256_0_0_0_0.resultIdx? j (startAt k) = some (ix2 r (j 0)) :=
  ScatterDims.resultIdx?_eq_some _ j _ _ fun a => by
    match a with
    | ⟨0, _⟩ => rw [show (⟨0, _⟩ : Fin 2) = 0 from rfl, row_start0, row_window0, hk]; exact Int.add_zero _
    | ⟨1, _⟩ => rw [show (⟨1, _⟩ : Fin 2) = 1 from rfl, row_start1, row_window1]; exact Int.zero_add _
section RowWrite
variable {α : Type}

theorem rowWrite_apply_same (k : BitVec 32) (r : Fin 8192) (hk : k.toInt = ((r.val : Nat) : Int))
    (y : S8192x256.Idx → α) (v : S256.Idx → α) (c : Fin 256) :
    Host.scatter scatter_S8192x256_S1_S256_0_0_0_0 (fun _ b => b) y (startAt k) v (ix2 r c) = v (ix1 c) := by
  refine Host.scatter_keep_apply_of_unique _ y (startAt k) v (ix2 r c) (ix1 c) (row_resultIdx k r hk (ix1 c)) ?_
  intro j' hj'
  rw [row_resultIdx k r hk j'] at hj'
  have h1 : j' 0 = c := congrFun (Option.some.inj hj') 1
  subst h1
  exact eq_ix1 j'

theorem rowWrite_apply_other (k : BitVec 32) (r : Fin 8192) (hk : k.toInt = ((r.val : Nat) : Int))
    (y : S8192x256.Idx → α) (v : S256.Idx → α) (i : S8192x256.Idx) (hi : i 0 ≠ r) :
    Host.scatter scatter_S8192x256_S1_S256_0_0_0_0 (fun _ b => b) y (startAt k) v i = y i := by
  refine Host.scatter_apply_of_forall_ne _ _ y (startAt k) v i ?_
  intro j hj
  rw [row_resultIdx k r hk j] at hj
  exact hi (congrFun (Option.some.inj hj) 0).symm
end RowWrite

theorem win_start0 (k : BitVec 32) (j : S8190x256.Idx) :
    scatter_S8192x256_S1_S8190x256_01_n_0_0.start j (startAt k) 0 = k.toInt := by
  unfold ScatterDims.start
  rw [dif_pos (show (0 : Fin 2) ∈ scatter_S8192x256_S1_S8190x256_01_n_0_0.scatterDimsToOperandDims from List.mem_singleton.mpr rfl)]
  rfl

theorem win_start1 (k : BitVec 32) (j : S8190x256.Idx) :
    scatter_S8192x256_S1_S8190x256_01_n_0_0.start j (startAt k) 1 = 0 := by
  unfold ScatterDims.start
  rw [dif_neg (show (1 : Fin 2) ∉ scatter_S8192x256_S1_S8190x256_01_n_0_0.scatterDimsToOperandDims from by decide)]

theorem win_window0 (j : S8190x256.Idx) : scatter_S8192x256_S1_S8190x256_01_n_0_0.window j 0 = (j 0).val := by
  unfold ScatterDims.window
  rw [dif_pos (show (0 : Fin 2) ∈ scatter_S8192x256_S1_S8190x256_01_n_0_0.sKept from by decide)]
  rfl

theorem win_window1 (j : S8190x256.Idx) : scatter_S8192x256_S1_S8190x256_01_n_0_0.window j 1 = (j 1).val := by
  unfold ScatterDims.window
  rw [dif_pos (show (1 : Fin 2) ∈ scatter_S8192x256_S1_S8190x256_01_n_0_0.sKept from by decide)]
  rfl

theorem win_resultIdx (k : BitVec 32) (o : Nat) (ho : o + 8190 ≤ 8192) (hk : k.toInt = ((o : Nat) : Int)) (j : S8190x256.Idx) :
    scatter_S8192x256_S1_S8190x256_01_n_0_0.resultIdx? j (startAt k)
      = some (ix2 (⟨o + (j 0).val, by have := idx2_lt0 j; omega⟩ : Fin 8192) (j 1)) :=
  ScatterDims.resultIdx?_eq_some _ j _ _ fun a => by
    match a with
    | ⟨0, _⟩ => rw [show (⟨0, _⟩ : Fin 2) = 0 from rfl, win_start0, win_window0, hk]; exact (Int.natCast_add _ _).symm
    | ⟨1, _⟩ => rw [show (⟨1, _⟩ : Fin 2) = 1 from rfl, win_start1, win_window1]; exact Int.zero_add _
section WinWrite
variable {α : Type}

theorem winWrite_apply_in (k : BitVec 32) (o : Nat) (ho : o + 8190 ≤ 8192) (hk : k.toInt = ((o : Nat) : Int))
    (y : S8192x256.Idx → α) (v : S8190x256.Idx → α) (p : Fin 8190) (c : Fin 256) (q : Fin 8192) (hq : q.val = o + p.val) :
    Host.scatter scatter_S8192x256_S1_S8190x256_01_n_0_0 (fun _ b => b) y (startAt k) v (ix2 q c) = v (ix2 p c) := by
  refine Host.scatter_keep_apply_of_unique _ y (startAt k) v (ix2 q c) (ix2 p c) ?_ ?_
  · rw [win_resultIdx k o ho hk (ix2 p c)]
    congr 1
    funext a
    match a with
    | ⟨0, _⟩ => exact Fin.ext hq.symm
    | ⟨1, _⟩ => rfl
  · intro j' hj'
    rw [win_resultIdx k o ho hk j'] at hj'
    have e := Option.some.inj hj'
    have e0 : o + (j' 0).val = q.val := congrArg Fin.val (congrFun e 0)
    have e1 : j' 1 = c := congrFun e 1
    have e0' : j' 0 = p := Fin.ext (by omega)
    subst e1
    subst e0'
    exact eq_ix2 j'

theorem winWrite_apply_out (k : BitVec 32) (o : Nat) (ho : o + 8190 ≤ 8192) (hk : k.toInt = ((o : Nat) : Int))
    (y : S8192x256.Idx → α) (v : S8190x256.Idx → α) (i : S8192x256.Idx) (hi : (i 0).val < o ∨ o + 8190 ≤ (i 0).val) :
    Host.scatter scatter_S8192x256_S1_S8190x256_01_n_0_0 (fun _ b => b) y (startAt k) v i = y i := by
  refine Host.scatter_apply_of_forall_ne _ _ y (startAt k) v i ?_
  intro j hj
  rw [win_resultIdx k o ho hk j] at hj
  have e0 : o + (j 0).val = (i 0).val := congrArg Fin.val (congrFun (Option.some.inj hj) 0)
  have := idx2_lt0 j
  omega
end WinWrite
end Cert.ReferenceIdeal.RefValue
end
-- ==== Proof.RefValue.lean ====
import proofs.«900540_g7700000000000541_dist_halo_stencil_i_m256_n256_v7x_i32_f32_1_alg».proof.Proof.Spec
import proofs.«900540_g7700000000000541_dist_halo_stencil_i_m256_n256_v7x_i32_f32_1_alg».proof.Proof.RefTerm
import proofs.«900540_g7700000000000541_dist_halo_stencil_i_m256_n256_v7x_i32_f32_1_alg».proof.Proof.RefLanding
import Idealize.ShloMosaic.Lib.ValueLayout
import Idealize.ShloMosaic.Lib.IdealHost
noncomputable section
namespace Cert.ReferenceIdeal.RefValue
open Idealize.ShloMosaic Idealize.ShloMosaic.ValueIdx Cert.ReferenceIdeal Cert.ReferenceIdeal.Facts₀ Cert.ReferenceIdeal.RefTerm

theorem rowOf_apply {F : FTy → Type} [FloatOps F] (r : Nat) (h : S8192x256.Slices ![r, 0] S1x256)
    (x : FVec F S8192x256 .f32) (c : Fin 256) (q : Fin 8192) (hq : q.val = r) :
    rowOf ![r, 0] h x (ix1 c) = x (ix2 q c) := by
  unfold rowOf
  rw [shapeCast_1a_a_apply]
  exact slice2_axis0_apply r x h (0 : Fin 1) c q (by rw [hq]; rfl)

theorem interior_apply (x : FVec Ideal S8192x256 .f32) (p : Fin 8190) (c : Fin 256) (a b d : Fin 8192)
    (ha : a.val = p.val) (hb : b.val = p.val + 1) (hd : d.val = p.val + 2) :
    RefTerm.interior x (ix2 p c) = Cert.Spec.comb (x (ix2 a c)) (x (ix2 b c)) (x (ix2 d c)) := by
  unfold RefTerm.interior Cert.Spec.comb Cert.Spec.wq Cert.Spec.wh
  simp only [addf_apply, mulf_apply]
  rw [slice2_axis0_apply 0 x _ p c a (by omega), slice2_axis0_apply 1 x _ p c b (by omega),
    slice2_axis0_apply 2 x _ p c d (by omega)]
  rfl

/-- Whatever the fresh buffer held, the three scatters leave the smoothing of X: every row is written exactly once. -/
theorem refTerm_eq (x a0 : FVec Ideal S8192x256 .f32) : RefTerm.refTerm (F := Ideal) x a0 = Cert.Spec.stencilW x := by
  funext i
  obtain ⟨r, c, rfl⟩ : ∃ (r : Fin 8192) (c : Fin 256), i = ix2 r c := ⟨i 0, i 1, eq_ix2 i⟩
  unfold RefTerm.refTerm Cert.Spec.stencilW
  split_ifs with h0 h1
  ·
    have h0' : r.val = 0 := h0
    rw [winWrite_apply_out 1#32 1 (by decide) toInt_start1 _ _ (ix2 r c) (Or.inl (by show r.val < 1; omega))]
    rw [rowWrite_apply_other 8191#32 ⟨8191, by decide⟩ toInt_start8191 _ _ (ix2 r c)
      (by intro e; have := congrArg Fin.val e; simp only [] at this; change r.val = 8191 at this; omega)]
    obtain rfl : r = ⟨0, by decide⟩ := Fin.ext h0'
    rw [rowWrite_apply_same 0#32 ⟨0, by decide⟩ toInt_start0 _ _ c]
    exact rowOf_apply 0 _ x c _ rfl
  ·
    have h1' : r.val = 8191 := h1
    rw [winWrite_apply_out 1#32 1 (by decide) toInt_start1 _ _ (ix2 r c) (Or.inr (by show 1 + 8190 ≤ r.val; omega))]
    obtain rfl : r = ⟨8191, by decide⟩ := Fin.ext h1'
    rw [rowWrite_apply_same 8191#32 ⟨8191, by decide⟩ toInt_start8191 _ _ c]
    exact rowOf_apply 8191 _ x c _ rfl
  ·
    have h0' : ¬ r.val = 0 := h0
    have h1' : ¬ r.val = 8191 := h1
    have hr := r.isLt
    rw [winWrite_apply_in 1#32 1 (by decide) toInt_start1 _ _ (⟨r.val - 1, by omega⟩ : Fin 8190) c r
      (by show r.val = 1 + (r.val - 1); omega)]
    exact interior_apply x _ c _ _ _ (by show r.val - 1 = r.val - 1; rfl) (by show r.val = r.val - 1 + 1; omega)
      (by show r.val + 1 = r.val - 1 + 2; omega)
/-- info: 'Cert.ReferenceIdeal.RefValue.refTerm_eq' depends on axioms: [propext, Classical.choice, Quot.sound] -/
#guard_msgs in
#print axioms refTerm_eq
end Cert.ReferenceIdeal.RefValue
end
-- ==== Proof.lean ====
/-
  A halo exchange on a line of 32 devices against the same three-point smoothing on one device: out[i] = X[i-1]/4 + X[i]/2 + X[i+1]/4
  inside the array, rows 0 and 8191 copied. Each device multiplies its block by the tridiagonal weight matrix and repairs its
  two edge rows with the rows its neighbours send; only commutativity and associativity of + and 0 · y = 0 are used, so the
  precondition is never opened.
-/
import proofs.«900540_g7700000000000541_dist_halo_stencil_i_m256_n256_v7x_i32_f32_1_alg».proof.Defs
import proofs.«900540_g7700000000000541_dist_halo_stencil_i_m256_n256_v7x_i32_f32_1_alg».proof.Proof.Gen.Kernel
import proofs.«900540_g7700000000000541_dist_halo_stencil_i_m256_n256_v7x_i32_f32_1_alg».proof.Proof.Gen.KernelIdeal
import proofs.«900540_g7700000000000541_dist_halo_stencil_i_m256_n256_v7x_i32_f32_1_alg».proof.Proof.Gen.ReferenceIdeal
import proofs.«900540_g7700000000000541_dist_halo_stencil_i_m256_n256_v7x_i32_f32_1_alg».proof.Proof.Gen.Pre_finite_inputs_Kernel
import proofs.«900540_g7700000000000541_dist_halo_stencil_i_m256_n256_v7x_i32_f32_1_alg».proof.Proof.Gen.Pre_finite_inputs_ReferenceIdeal
import proofs.«900540_g7700000000000541_dist_halo_stencil_i_m256_n256_v7x_i32_f32_1_alg».proof.Proof.Run
import proofs.«900540_g7700000000000541_dist_halo_stencil_i_m256_n256_v7x_i32_f32_1_alg».proof.Proof.Bits.Run
import proofs.«900540_g7700000000000541_dist_halo_stencil_i_m256_n256_v7x_i32_f32_1_alg».proof.Proof.Value
import proofs.«900540_g7700000000000541_dist_halo_stencil_i_m256_n256_v7x_i32_f32_1_alg».proof.Proof.RefRun
import proofs.«900540_g7700000000000541_dist_halo_stencil_i_m256_n256_v7x_i32_f32_1_alg».proof.Proof.RefValue
import Idealize.ShloMosaic.Adequacy
import Idealize.ShloMosaic.Init
noncomputable section
namespace Cert.Proof
open Idealize.ShloMosaic Idealize.SL.Sem

theorem frame_k : Cert.frame_Kernel := fun m g _ =>
  (θ_run Cert.Kernel.defs _ _).mono (fun _ h c => (h c).2) (Cert.Kernel.Proto.run (F := Bits) m g)

theorem frame_ki : Cert.frame_KernelIdeal := fun m g _ =>
  (θ_run Cert.KernelIdeal.defs _ _).mono (fun _ h c => (h c).2) (Cert.KernelIdeal.Proto.run (F := Ideal) m g)

theorem frame_ri : Cert.frame_ReferenceIdeal := fun m g _ =>
  (θ_run Cert.ReferenceIdeal.defs _ _).mono (fun _ h c => (h c).2) (Cert.ReferenceIdeal.RefRun.run (F := Ideal) m g)

theorem preserves : Cert.preserves_Kernel_KernelIdeal := trivial

theorem algebraic : Cert.algebraic_KernelIdeal_ReferenceIdeal := by
  intro m g m' g' _ hagree
  refine ⟨Cert.Spec.stencilW (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩) (Cert.KernelIdeal.Proto.run (F := Ideal) m g)
    exact Cert.KernelIdeal.Proto.out_is_block m g _ hagree c
  · refine (θ_run Cert.ReferenceIdeal.defs _ _).mono (fun _ h => ⟨?_, (h 0).2⟩) (Cert.ReferenceIdeal.RefRun.run (F := Ideal) m' g')
    obtain ⟨a0, ha⟩ := (h 0).1
    exact ha.trans (Cert.ReferenceIdeal.RefValue.refTerm_eq _ a0)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩
end Cert.Proof
end
